-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x2304 : Shape := ⟨2, ![768, 2304]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S768x2304 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S768x2304 : Shape := ⟨2, ![768, 2304]⟩
abbrev S768x768 : Shape := ⟨2, ![768, 768]⟩
abbrev S768 : Shape := ⟨1, ![768]⟩
abbrev S8192x768 : Shape := ⟨2, ![8192, 768]⟩
abbrev S8192x2304 : Shape := ⟨2, ![8192, 2304]⟩
abbrev S1024x768 : Shape := ⟨2, ![1024, 768]⟩
abbrev S1024x2304 : Shape := ⟨2, ![1024, 2304]⟩
abbrev S4x2048x2304 : Shape := ⟨3, ![4, 2048, 2304]⟩
abbrev S1x2048x256 : Shape := ⟨3, ![1, 2048, 256]⟩
abbrev S1x512x256 : Shape := ⟨3, ![1, 512, 256]⟩
abbrev S2048x4 : Shape := ⟨2, ![2048, 4]⟩
abbrev S2048x256 : Shape := ⟨2, ![2048, 256]⟩
abbrev S512x256 : Shape := ⟨2, ![512, 256]⟩
abbrev S2048x64 : Shape := ⟨2, ![2048, 64]⟩
abbrev S512x64 : Shape := ⟨2, ![512, 64]⟩
abbrev S2048x512 : Shape := ⟨2, ![2048, 512]⟩
abbrev S2048x1 : Shape := ⟨2, ![2048, 1]⟩
abbrev S2048 : Shape := ⟨1, ![2048]⟩
abbrev S2048x768 : Shape := ⟨2, ![2048, 768]⟩
abbrev S1x768 : Shape := ⟨2, ![1, 768]⟩

abbrev nBuf : Space → Nat
  | .hbm => 11
  | .vmem => 23
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S8192x2304, .bf16⟩
  | .hbm, ⟨6, _⟩ => ⟨S4x2048x2304, .bf16⟩
  | .hbm, ⟨7, _⟩ => ⟨S4x2048x768, .bf16⟩
  | .hbm, ⟨8, _⟩ => ⟨S8192x768, .bf16⟩
  | .hbm, ⟨9, _⟩ => ⟨S8192x768, .f32⟩
  | .hbm, ⟨10, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S768x2304, .f32⟩
  | .local _ .vmem, ⟨3, _⟩ => ⟨S1024x2304, .bf16⟩
  | .local _ .vmem, ⟨4, _⟩ => ⟨S1024x2304, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S2048x4, .f32⟩
  | .local _ .vmem, ⟨15, _⟩ => ⟨S2048x4, .f32⟩
  | .local _ .vmem, ⟨16, _⟩ => ⟨S2048x256, .f32⟩
  | .local _ .vmem, ⟨17, _⟩ => ⟨S2048x768, .bf16⟩
  | .local _ .vmem, ⟨18, _⟩ => ⟨S2048x768, .bf16⟩
  | .local _ .vmem, ⟨19, _⟩ => ⟨S768x768, .f32⟩
  | .local _ .vmem, ⟨20, _⟩ => ⟨S768, .f32⟩
  | .local _ .vmem, ⟨21, _⟩ => ⟨S2048x768, .f32⟩
  | .local _ .vmem, ⟨22, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 3, 4], ![false, false, false]⟩

def k1_cond2 (i : grid1.Coords) : BitVec 1 :=
  let arg2 : BitVec 32 := BitVec.ofNat 32 (i 2).val
  let c3_i32 : BitVec 32 := 3#32
  let v141 : BitVec 1 := Scalar.cmpi .eq arg2 c3_i32
  let v142 : BitVec 32 := Scalar.extui v141
  let c0_i32_66 : BitVec 32 := 0#32
  let v143 : BitVec 1 := Scalar.cmpi .ne v142 c0_i32_66
  v143

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x768_S8192x768 : S4x2048x768.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S8192x2304_S4x2048x2304 : S8192x2304.ShapeCasts S4x2048x2304
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S1x2048x256 : S1x2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  slices_S2048x256_o0_0_S2048x64 : S2048x256.Slices ![0, 0] S2048x64
  slices_S512x256_o0_0_S512x64 : S512x256.Slices ![0, 0] S512x64
  inb_S2048x4_S2048x1_0_0 : ∀ a, (![0, 0] : Fin 2 → Nat) a + S2048x1.size a ≤ S2048x4.size a
  h_S2048x1 : 0 < S2048x1.numel
  reduces_S2048x512_S2048 : S2048x512.Reduces [1] S2048
  shapeCasts_S2048_S2048x1 : S2048.ShapeCasts S2048x1
  broadcasts_S2048x1_S2048x512 : S2048x1.Broadcasts S2048x512
  shapeCasts_S2048x1_S2048x1 : S2048x1.ShapeCasts S2048x1
  inb_S2048x256_S2048x64_0_0 : ∀ a, (![0, 0] : Fin 2 → Nat) a + S2048x64.size a ≤ S2048x256.size a
  h_S2048x64 : 0 < S2048x64.numel
  broadcasts_S2048x1_S2048x64 : S2048x1.Broadcasts S2048x64
  shapeCasts_S2048x64_S2048x64 : S2048x64.ShapeCasts S2048x64
  slices_S2048x256_o0_64_S2048x64 : S2048x256.Slices ![0, 64] S2048x64
  slices_S512x256_o0_64_S512x64 : S512x256.Slices ![0, 64] S512x64
  inb_S2048x4_S2048x1_0_1 : ∀ a, (![0, 1] : Fin 2 → Nat) a + S2048x1.size a ≤ S2048x4.size a
  inb_S2048x256_S2048x64_0_64 : ∀ a, (![0, 64] : Fin 2 → Nat) a + S2048x64.size a ≤ S2048x256.size a
  slices_S2048x256_o0_128_S2048x64 : S2048x256.Slices ![0, 128] S2048x64
  slices_S512x256_o0_128_S512x64 : S512x256.Slices ![0, 128] S512x64
  inb_S2048x4_S2048x1_0_2 : ∀ a, (![0, 2] : Fin 2 → Nat) a + S2048x1.size a ≤ S2048x4.size a
  inb_S2048x256_S2048x64_0_128 : ∀ a, (![0, 128] : Fin 2 → Nat) a + S2048x64.size a ≤ S2048x256.size a
  slices_S2048x256_o0_192_S2048x64 : S2048x256.Slices ![0, 192] S2048x64
  slices_S512x256_o0_192_S512x64 : S512x256.Slices ![0, 192] S512x64
  inb_S2048x4_S2048x1_0_3 : ∀ a, (![0, 3] : Fin 2 → Nat) a + S2048x1.size a ≤ S2048x4.size a
  inb_S2048x256_S2048x64_0_192 : ∀ a, (![0, 192] : Fin 2 → Nat) a + S2048x64.size a ≤ S2048x256.size a
  concatenates_S2048x64_S2048x64_S2048x64_S2048x64_S2048x256_d1 : Shape.Concatenates [S2048x64, S2048x64, S2048x64, S2048x64] S2048x256 1
  shapeCasts_S2048x256_S1x2048x256 : S2048x256.ShapeCasts S1x2048x256
  inb_S768x768_S768x768_0_0 : ∀ a, (![0, 0] : Fin 2 → Nat) a + S768x768.size a ≤ S768x768.size a
  h_S768x768 : 0 < S768x768.numel
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  shapeCasts_S8192x768_S4x2048x768 : S8192x768.ShapeCasts S4x2048x768
  dot_S1024x768_S768x2304_S1024x2304_1_0_0_1_n_n_wf : DotDims.WF S1024x768 S768x2304 S1024x2304 [1] [0] [0] [1] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S8192x2304.size a
  hwx0_2 : ∀ i : grid0.Coords, EltTy.bits .bf16 = 32 ∨ (Rect.block (s := S8192x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x2048x2304.size a
  hwx1_0 : ∀ i : grid1.Coords, EltTy.bits .bf16 = 32 ∨ (Rect.block (s := S4x2048x2304) S1x2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S4x2048x2304.size a
  hwx1_1 : ∀ i : grid1.Coords, EltTy.bits .bf16 = 32 ∨ (Rect.block (s := S4x2048x2304) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S4x2048x2304.size a
  hwx1_2 : ∀ i : grid1.Coords, EltTy.bits .bf16 = 32 ∨ (Rect.block (s := S4x2048x2304) S1x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S4x2048x768.size a
  hwx1_3 : ∀ i : grid1.Coords, EltTy.bits .bf16 = 32 ∨ (Rect.block (s := S4x2048x768) S1x2048x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x768.size a ≤ S8192x768.size a
  hwx2_0 : ∀ i : grid2.Coords, EltTy.bits .bf16 = 32 ∨ (Rect.block (s := S8192x768) S2048x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x768.size a ≤ S8192x768.size a
  hwx2_3 : ∀ i : grid2.Coords, EltTy.bits .f32 = 32 ∨ (Rect.block (s := S8192x768) S2048x768.size (cc2_transform_3 i) (hinb2_3 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S2048x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2048x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x768 : Shape := ⟨3, ![4, 2048, 768]⟩
abbrev S768x2304 : Shape := ⟨2, ![768, 2304]⟩
abbrev S768x768 : Shape := ⟨2, ![768, 768]⟩
abbrev S768 : Shape := ⟨1, ![768]⟩
abbrev S4x2048x2304 : Shape := ⟨3, ![4, 2048, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x12x64, .f32⟩
  | .hbm, ⟨9, _⟩ => ⟨S4x12x2048x64, .f32⟩
  | .hbm, ⟨10, _⟩ => ⟨S4x2048x12x64, .f32⟩
  | .hbm, ⟨11, _⟩ => ⟨S4x12x2048x64, .f32⟩
  | .hbm, ⟨12, _⟩ => ⟨S4x2048x12x64, .f32⟩
  | .hbm, ⟨13, _⟩ => ⟨S4x12x2048x64, .f32⟩
  | .hbm, ⟨14, _⟩ => ⟨S4x12x2048x2048, .f32⟩
  | .hbm, ⟨15, _⟩ => ⟨S_, .f32⟩
  | .hbm, ⟨16, _⟩ => ⟨S4x12x2048x2048, .f32⟩
  | .hbm, ⟨17, _⟩ => ⟨S4x12x2048x2048, .f32⟩
  | .hbm, ⟨18, _⟩ => ⟨S_, .f32⟩
  | .hbm, ⟨19, _⟩ => ⟨S4x12x2048, .f32⟩
  | .hbm, ⟨20, _⟩ => ⟨S_, .f32⟩
  | .hbm, ⟨21, _⟩ => ⟨S4x12x2048, .f32⟩
  | .hbm, ⟨22, _⟩ => ⟨S4x12x2048, .f32⟩
  | .hbm, ⟨23, _⟩ => ⟨S4x12x2048x1, .f32⟩
  | .hbm, ⟨24, _⟩ => ⟨S4x12x2048x2048, .f32⟩
  | .hbm, ⟨25, _⟩ => ⟨S4x12x2048x2048, .f32⟩
  | .hbm, ⟨26, _⟩ => ⟨S4x12x2048x2048, .f32⟩
  | .hbm, ⟨27, _⟩ => ⟨S_, .f32⟩
  | .hbm, ⟨28, _⟩ => ⟨S4x12x2048, .f32⟩
  | .hbm, ⟨29, _⟩ => ⟨S4x12x2048x1, .f32⟩
  | .hbm, ⟨30, _⟩ => ⟨S4x12x2048x2048, .f32⟩
  | .hbm, ⟨31, _⟩ => ⟨S4x12x2048x2048, .f32⟩
  | .hbm, ⟨32, _⟩ => ⟨S4x12x2048x64, .f32⟩
  | .hbm, ⟨33, _⟩ => ⟨S4x2048x12x64, .f32⟩
  | .hbm, ⟨34, _⟩ => ⟨S4x2048x768, .f32⟩
  | .hbm, ⟨35, _⟩ => ⟨S4x2048x768, .f32⟩
  | .hbm, ⟨36, _⟩ => ⟨S1x1x768, .f32⟩
  | .hbm, ⟨37, _⟩ => ⟨S4x2048x768, .f32⟩
  | .hbm, ⟨38, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S768x2304_S4x2048x2304_2_0_01_1_n_n_wf : DotDims.WF S4x2048x768 S768x2304 S4x2048x2304 [2] [0] [0, 1] [1] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_0_01_1_n_n_wf : DotDims.WF S4x2048x768 S768x768 S4x2048x768 [2] [0] [0, 1] [1] [] []

variable [Facts₀]

def dot_S4x2048x768_S768x2304_S4x2048x2304_2_0_01_1_n_n : DotDims S4x2048x768 S768x2304 S4x2048x2304 where
  lhsContracting := [2]
  rhsContracting := [0]
  lhsNonContracting := [0, 1]
  rhsNonContracting := [1]
  lhsBatch := []
  rhsBatch := []
  wf := dot_S4x2048x768_S768x2304_S4x2048x2304_2_0_01_1_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_0_01_1_n_n : DotDims S4x2048x768 S768x768 S4x2048x768 where
  lhsContracting := [2]
  rhsContracting := [0]
  lhsNonContracting := [0, 1]
  rhsNonContracting := [1]
  lhsBatch := []
  rhsBatch := []
  wf := dot_S4x2048x768_S768x768_S4x2048x768_2_0_01_1_n_n_wf

class Facts : Prop extends Facts₀ where

variable [Facts]
-- ==== Proof.K.Reg0.lean ====
/- The packed projection region: its body obligation at every grid point. -/
import proofs.«401092_j26680336843340_3_alg».proof.Proof.Gen.Kernel.Launch
import proofs.«401092_j26680336843340_3_alg».proof.Proof.Gen.Kernel.Skeleton
import proofs.«401092_j26680336843340_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

abbrev rX : Rect S1024x768 := Rect.unit (s := S1024x768) ![0, 0] S1024x768.size inb_S1024x768_S1024x768_0_0
abbrev rW : Rect S768x2304 := Rect.unit (s := S768x2304) ![0, 0] S768x2304.size inb_S768x2304_S768x2304_0_0
abbrev rO : Rect S1024x2304 := Rect.unit (s := S1024x2304) ![0, 0] S1024x2304.size inb_S1024x2304_S1024x2304_0_0

def out0_2 (x0 : Vec F S1024x768 .f32) (x1 : Vec F S768x2304 .f32) : Vec F S1024x2304 .bf16 :=
  View.canon [⟨rO, k0_pay1 (View.ld x0 rX) (View.ld x1 rW)⟩]

theorem cover0_2 (p : Vec F S1024x2304 .bf16) (y : S1024x2304.Idx) :
    ∃ pc ∈ ([⟨rO, p⟩] : List (View.Piece (Elt F) S1024x2304 .bf16)), y ∈ pc.1.set :=
  View.cover_of_tiled [⟨rO, p⟩] S1024x2304.size (by rfl) y

set_option maxHeartbeats 1000000 in

theorem sound_kernel0 (c : Dev nD) (E : Set ℕ) (arg1 : Memref sig .tc .vmem S1024x768 .f32) (harg1 : arg1.IsWhole)
    (arg2 : Memref sig .tc .vmem S768x2304 .f32) (harg2 : arg2.IsWhole) (arg3 : Memref sig .tc .vmem S1024x2304 .bf16) (harg3 : arg3.IsWhole)
    (i : grid0.Coords) (x0 : Vec F S1024x768 .f32) (x1 : Vec F S768x2304 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg2.lean ====
/- The output projection region: its body obligation at every grid point. -/
import proofs.«401092_j26680336843340_3_alg».proof.Proof.Gen.Kernel.Launch
import proofs.«401092_j26680336843340_3_alg».proof.Proof.Gen.Kernel.Skeleton
import proofs.«401092_j26680336843340_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rBlk : Rect S2048x768 := Rect.unit (s := S2048x768) ![0, 0] S2048x768.size inb_S2048x768_S2048x768_0_0

abbrev rWgt : Rect S768x768 := Rect.unit (s := S768x768) ![0, 0] S768x768.size inb_S768x768_S768x768_0_0

abbrev rBias : Rect S768 := Rect.unit (s := S768) ![0] S768.size inb_S768_S768_0

def out2_3 (x0 : Vec F S2048x768 .bf16) (x1 : Vec F S768x768 .f32) (x2 : Vec F S768 .f32) : Vec F S2048x768 .f32 :=
  View.canon [⟨rBlk, k2_pay1 (View.ld x1 rWgt) (View.ld x0 rBlk) (View.ld x2 rBias)⟩]

theorem cover2_3 (p0 : Vec F S2048x768 .f32) (y : S2048x768.Idx) :
    ∃ pc ∈ ([⟨rBlk, p0⟩] : List (View.Piece (Elt F) S2048x768 .f32)), y ∈ pc.1.set :=
  View.cover_of_tiled [⟨rBlk, p0⟩] S2048x768.size (by rfl) y

set_option maxHeartbeats 1000000 in

theorem sound_kernel2 (c : Dev nD) (E : Set ℕ) (i : grid2.Coords)
    (arg1 : Memref sig .tc .vmem S2048x768 .bf16) (harg1 : arg1.IsWhole) (arg2 : Memref sig .tc .vmem S768x768 .f32) (harg2 : arg2.IsWhole)
    (arg3 : Memref sig .tc .vmem S768 .f32) (harg3 : arg3.IsWhole) (arg4 : Memref sig .tc .vmem S2048x768 .f32) (harg4 : arg4.IsWhole)
    (x0 : Vec F S2048x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R1Base.lean ====
/- The attention region: its two branch conditions in closed form over the grid, and its entry resources with the four scratch buffers split out. -/
import proofs.«401092_j26680336843340_3_alg».proof.Proof.Gen.Kernel.Launch
import proofs.«401092_j26680336843340_3_alg».proof.Proof.Gen.Kernel.Skeleton
import proofs.«401092_j26680336843340_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel

theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S1x2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x256 .bf16 := win1_3.stage (cfg1.slots t 3)
abbrev hs1_3 (t : Fin cfg1.N) : (ms1_3 t).IsWhole := hstage1_3 ((cfg1.slots t 3).cast nbuf1_3)

abbrev scQ : Memref sig .tc .vmem S1x2048x256 .bf16 := Memref.whole cc1_scratch0
abbrev scM : Memref sig .tc .vmem S2048x4 .f32 := Memref.whole cc1_scratch1
abbrev scL : Memref sig .tc .vmem S2048x4 .f32 := Memref.whole cc1_scratch2
abbrev scA : Memref sig .tc .vmem S2048x256 .f32 := Memref.whole cc1_scratch3

abbrev VO1 : View sig .tc .vmem S1x2048x256 .bf16 := (Memref.whole cc1_stg3_0 : Memref sig .tc .vmem S1x2048x256 .bf16).view
abbrev VQ : View sig .tc .vmem S1x2048x256 .bf16 := scQ.view
abbrev VM : View sig .tc .vmem S2048x4 .f32 := scM.view
abbrev VL : View sig .tc .vmem S2048x4 .f32 := scL.view
abbrev VA : View sig .tc .vmem S2048x256 .f32 := scA.view

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_split (c : Dev nD) :
    (Pipeline.ΦA spec1 c : sProp 𝕄)
      ⊢ iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ Rest1 c ∗ (∃ r, prngReg c r)) := by
  unfold Pipeline.ΦA Rest1; rw [scopedRest1_eq]; simp only [scQ, scM, scL, scA, owns_whole]
  iintro ⟨⟨A0, A1, A2, A3, A4, Q, M, L, A, B0, B1, B2, B3, B4, B5⟩, Hp⟩
  isplitl [Q M L A]
  · isplitl [Q]; · iexact Q
    isplitl [M]; · iexact M
    isplitl [L]; · iexact L
    iexact A
  isplitl [A0 A1 A2 A3 A4 B0 B1 B2 B3 B4 B5]
  · isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    iexact B5
  iexact Hp

theorem PhiA1_join (c : Dev nD) :
    iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ Rest1 c ∗ (∃ r, prngReg c r))
      ⊢ (Pipeline.ΦA spec1 c : sProp 𝕄) := by
  unfold Pipeline.ΦA Rest1; rw [scopedRest1_eq]; simp only [scQ, scM, scL, scA, owns_whole]
  iintro ⟨⟨Q, M, L, A⟩, ⟨A0, A1, A2, A3, A4, B0, B1, B2, B3, B4, B5⟩, Hp⟩
  isplitr [Hp]
  · isplitl [A0]; · iexact A0
    isplitl [A1]; · iexact A1
    isplitl [A2]; · iexact A2
    isplitl [A3]; · iexact A3
    isplitl [A4]; · iexact A4
    isplitl [Q]; · iexact Q
    isplitl [M]; · iexact M
    isplitl [L]; · iexact L
    isplitl [A]; · iexact A
    isplitl [B0]; · iexact B0
    isplitl [B1]; · iexact B1
    isplitl [B2]; · iexact B2
    isplitl [B3]; · iexact B3
    isplitl [B4]; · iexact B4
    iexact B5
  iexact Hp

end Cert.Kernel.Hand

end
-- ==== Proof.K.R1RunB.lean ====
/- The attention body at a middle key block, run once on whole memrefs. -/
import proofs.«401092_j26680336843340_3_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in

noncomputable def kernelRun1_B (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : ¬cond1_0 i) (hc1 : ¬cond1_1 i)
    (x0 : Vec F S1x2048x256 .bf16) (x1 x2 : Vec F S1x512x256 .bf16) (xs0 : Vec F S1x2048x256 .bf16) (xs1 xs2 : Vec F S2048x4 .f32) (xs3 : Vec F S2048x256 .f32) :
    Σ' (LM : List (View.Piece (Elt F) S2048x4 .f32)) (LL : List (View.Piece (Elt F) S2048x4 .f32)), { LA : List (View.Piece (Elt F) S2048x256 .f32) //
      ∀ (xi3 : Vec F S1x2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi3 E K => ?run⟩
  case run =>
    sl_unfold [cc1__flash_kernel]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]; · iexists _; iexact HS1
    isplitl [HS2]; · iexists _; iexact HS2
    iexists _; iexact HS3

end Cert.Kernel.Hand

end
-- ==== Proof.K.R1RunA.lean ====
/- The attention body at a first key block, run once on whole memrefs. -/
import proofs.«401092_j26680336843340_3_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in

noncomputable def kernelRun1_A (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : cond1_0 i) (hc1 : ¬cond1_1 i)
    (x0 : Vec F S1x2048x256 .bf16) (x1 x2 : Vec F S1x512x256 .bf16) :
    Σ' (LQ : List (View.Piece (Elt F) S1x2048x256 .bf16)) (LM : List (View.Piece (Elt F) S2048x4 .f32)) (LL : List (View.Piece (Elt F) S2048x4 .f32)), { LA : List (View.Piece (Elt F) S2048x256 .f32) //
      ∀ (xi3 : Vec F S1x2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LQ) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun xi3 E K => ?run⟩
  case run =>
    sl_unfold [cc1__flash_kernel]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.R1RunC.lean ====
/- The attention body at a last key block, run once on whole memrefs. -/
import proofs.«401092_j26680336843340_3_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in

noncomputable def kernelRun1_C (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : ¬cond1_0 i) (hc1 : cond1_1 i)
    (x0 : Vec F S1x2048x256 .bf16) (x1 x2 : Vec F S1x512x256 .bf16) (xs0 : Vec F S1x2048x256 .bf16) (xs1 xs2 : Vec F S2048x4 .f32) (xs3 : Vec F S2048x256 .f32) :
    Σ' (LO : List (View.Piece (Elt F) S1x2048x256 .bf16)) (LM : List (View.Piece (Elt F) S2048x4 .f32)) (LL : List (View.Piece (Elt F) S2048x4 .f32)), { LA : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xs0 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    sl_unfold [cc1__flash_kernel]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]; · iexists _; iexact HS1
    isplitl [HS2]; · iexists _; iexact HS2
    iexists _; iexact HS3

end Cert.Kernel.Hand

end
-- ==== Proof.K.R1Defs.lean ====
/- The attention region's proof data: what each case of the body leaves, the carried state after each grid point, the invariant. -/
import proofs.«401092_j26680336843340_3_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pieces

variable (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole)

section A
variable (hc0 : cond1_0 i) (hc1 : ¬cond1_1 i) (x0 : Vec F S1x2048x256 .bf16) (x1 x2 : Vec F S1x512x256 .bf16)

def sQ_A : Vec F S1x2048x256 .bf16 :=
  VQ.read (Elt F) (VQ.writes (Elt F) VQ.junk (kernelRun1_A c i arg3 harg3 arg4 harg4 arg5 harg5 arg6 harg6 arg7 harg7 arg8 harg8 arg9 harg9 arg10 harg10 hc0 hc1 x0 x1 x2).1)

def sM_A : Vec F S2048x4 .f32 :=
  VM.read (Elt F) (VM.writes (Elt F) VM.junk (kernelRun1_A c i arg3 harg3 arg4 harg4 arg5 harg5 arg6 harg6 arg7 harg7 arg8 harg8 arg9 harg9 arg10 harg10 hc0 hc1 x0 x1 x2).2.1)

def sL_A : Vec F S2048x4 .f32 :=
  VL.read (Elt F) (VL.writes (Elt F) VL.junk (kernelRun1_A c i arg3 harg3 arg4 harg4 arg5 harg5 arg6 harg6 arg7 harg7 arg8 harg8 arg9 harg9 arg10 harg10 hc0 hc1 x0 x1 x2).2.2.1)

def sA_A : Vec F S2048x256 .f32 :=
  VA.read (Elt F) (VA.writes (Elt F) VA.junk (kernelRun1_A c i arg3 harg3 arg4 harg4 arg5 harg5 arg6 harg6 arg7 harg7 arg8 harg8 arg9 harg9 arg10 harg10 hc0 hc1 x0 x1 x2).2.2.2.1)

/-- Each buffer's stored pieces tile it. -/
theorem covers_A :
    (∀ y, ∃ pc ∈ (kernelRun1_A c i arg3 harg3 arg4 harg4 arg5 harg5 arg6 harg6 arg7 harg7 arg8 harg8 arg9 harg9 arg10 harg10 hc0 hc1 x0 x1 x2).1, y ∈ pc.1.set)
    ∧ (∀ y, ∃ pc ∈ (kernelRun1_A c i arg3 harg3 arg4 harg4 arg5 harg5 arg6 harg6 arg7 harg7 arg8 harg8 arg9 harg9 arg10 harg10 hc0 hc1 x0 x1 x2).2.1, y ∈ pc.1.set)
    ∧ (∀ y, ∃ pc ∈ (kernelRun1_A c i arg3 harg3 arg4 harg4 arg5 harg5 arg6 harg6 arg7 harg7 arg8 harg8 arg9 harg9 arg10 harg10 hc0 hc1 x0 x1 x2).2.2.1, y ∈ pc.1.set)
    ∧ ∀ y, ∃ pc ∈ (kernelRun1_A c i arg3 harg3 arg4 harg4 arg5 harg5 arg6 harg6 arg7 harg7 arg8 harg8 arg9 harg9 arg10 harg10 hc0 hc1 x0 x1 x2).2.2.2.1, y ∈ pc.1.set :=
  ⟨View.cover_of_tiledL _ S1x2048x256.size (by sl_kernel_rfl),
   View.cover_of_tiledL _ S2048x1.size (by sl_kernel_rfl),
   View.cover_of_tiledL _ S2048x1.size (by sl_kernel_rfl),
   View.cover_of_tiledL _ S2048x64.size (by sl_kernel_rfl)⟩

end A

section B
variable (hc0 : ¬cond1_0 i) (hc1 : ¬cond1_1 i) (x0 : Vec F S1x2048x256 .bf16) (x1 x2 : Vec F S1x512x256 .bf16) (xs0 : Vec F S1x2048x256 .bf16) (xs1 xs2 : Vec F S2048x4 .f32) (xs3 : Vec F S2048x256 .f32)

def sM_B : Vec F S2048x4 .f32 :=
  VM.read (Elt F) (VM.writes (Elt F) VM.junk (kernelRun1_B c i arg3 harg3 arg4 harg4 arg5 harg5 arg6 harg6 arg7 harg7 arg8 harg8 arg9 harg9 arg10 harg10 hc0 hc1 x0 x1 x2 xs0 xs1 xs2 xs3).1)

def sL_B : Vec F S2048x4 .f32 :=
  VL.read (Elt F) (VL.writes (Elt F) VL.junk (kernelRun1_B c i arg3 harg3 arg4 harg4 arg5 harg5 arg6 harg6 arg7 harg7 arg8 harg8 arg9 harg9 arg10 harg10 hc0 hc1 x0 x1 x2 xs0 xs1 xs2 xs3).2.1)

def sA_B : Vec F S2048x256 .f32 :=
  VA.read (Elt F) (VA.writes (Elt F) VA.junk (kernelRun1_B c i arg3 harg3 arg4 harg4 arg5 harg5 arg6 harg6 arg7 harg7 arg8 harg8 arg9 harg9 arg10 harg10 hc0 hc1 x0 x1 x2 xs0 xs1 xs2 xs3).2.2.1)

/-- Each buffer's stored pieces tile it. -/
theorem covers_B :
    (∀ y, ∃ pc ∈ (kernelRun1_B c i arg3 harg3 arg4 harg4 arg5 harg5 arg6 harg6 arg7 harg7 arg8 harg8 arg9 harg9 arg10 harg10 hc0 hc1 x0 x1 x2 xs0 xs1 xs2 xs3).1, y ∈ pc.1.set)
    ∧ (∀ y, ∃ pc ∈ (kernelRun1_B c i arg3 harg3 arg4 harg4 arg5 harg5 arg6 harg6 arg7 harg7 arg8 harg8 arg9 harg9 arg10 harg10 hc0 hc1 x0 x1 x2 xs0 xs1 xs2 xs3).2.1, y ∈ pc.1.set)
    ∧ ∀ y, ∃ pc ∈ (kernelRun1_B c i arg3 harg3 arg4 harg4 arg5 harg5 arg6 harg6 arg7 harg7 arg8 harg8 arg9 harg9 arg10 harg10 hc0 hc1 x0 x1 x2 xs0 xs1 xs2 xs3).2.2.1, y ∈ pc.1.set :=
  ⟨View.cover_of_tiledL _ S2048x1.size (by sl_kernel_rfl),
   View.cover_of_tiledL _ S2048x1.size (by sl_kernel_rfl),
   View.cover_of_tiledL _ S2048x64.size (by sl_kernel_rfl)⟩

end B

section C
variable (hc0 : ¬cond1_0 i) (hc1 : cond1_1 i) (x0 : Vec F S1x2048x256 .bf16) (x1 x2 : Vec F S1x512x256 .bf16) (xs0 : Vec F S1x2048x256 .bf16) (xs1 xs2 : Vec F S2048x4 .f32) (xs3 : Vec F S2048x256 .f32)

def sO_C : Vec F S1x2048x256 .bf16 :=
  VO1.read (Elt F) (VO1.writes (Elt F) VO1.junk (kernelRun1_C c i arg3 harg3 arg4 harg4 arg5 harg5 arg6 harg6 arg7 harg7 arg8 harg8 arg9 harg9 arg10 harg10 hc0 hc1 x0 x1 x2 xs0 xs1 xs2 xs3).1)

def sM_C : Vec F S2048x4 .f32 :=
  VM.read (Elt F) (VM.writes (Elt F) VM.junk (kernelRun1_C c i arg3 harg3 arg4 harg4 arg5 harg5 arg6 harg6 arg7 harg7 arg8 harg8 arg9 harg9 arg10 harg10 hc0 hc1 x0 x1 x2 xs0 xs1 xs2 xs3).2.1)

def sL_C : Vec F S2048x4 .f32 :=
  VL.read (Elt F) (VL.writes (Elt F) VL.junk (kernelRun1_C c i arg3 harg3 arg4 harg4 arg5 harg5 arg6 harg6 arg7 harg7 arg8 harg8 arg9 harg9 arg10 harg10 hc0 hc1 x0 x1 x2 xs0 xs1 xs2 xs3).2.2.1)

def sA_C : Vec F S2048x256 .f32 :=
  VA.read (Elt F) (VA.writes (Elt F) VA.junk (kernelRun1_C c i arg3 harg3 arg4 harg4 arg5 harg5 arg6 harg6 arg7 harg7 arg8 harg8 arg9 harg9 arg10 harg10 hc0 hc1 x0 x1 x2 xs0 xs1 xs2 xs3).2.2.2.1)

/-- Each buffer's stored pieces tile it. -/
theorem covers_C :
    (∀ y, ∃ pc ∈ (kernelRun1_C c i arg3 harg3 arg4 harg4 arg5 harg5 arg6 harg6 arg7 harg7 arg8 harg8 arg9 harg9 arg10 harg10 hc0 hc1 x0 x1 x2 xs0 xs1 xs2 xs3).1, y ∈ pc.1.set)
    ∧ (∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.1, y ∈ pc.1.set)
    ∧ (∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.2.1, y ∈ pc.1.set)
    ∧ ∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.2.2.1, y ∈ pc.1.set :=
  ⟨View.cover_of_tiledL _ S1x2048x256.size (by sl_kernel_rfl),
   View.cover_of_tiledL _ S2048x1.size (by sl_kernel_rfl),
   View.cover_of_tiledL _ S2048x1.size (by sl_kernel_rfl),
   View.cover_of_tiledL _ S2048x64.size (by sl_kernel_rfl)⟩

end C

end Pieces

structure St1 (F : FTy → Type) [FloatOps F] where
  out : Vec F S1x2048x256 .bf16
  q : Vec F S1x2048x256 .bf16
  m : Vec F S2048x4 .f32
  l : Vec F S2048x4 .f32
  a : Vec F S2048x256 .f32

def noOut : Vec F S1x2048x256 .bf16 := VO1.read (Elt F) (VO1.writes (Elt F) VO1.junk [])

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stA (c : Dev nD) (t : Fin cfg1.N) (hc0 : cond1_0 (grid1.coords t)) (hc1 : ¬cond1_1 (grid1.coords t)) : St1 F :=
  ⟨noOut,
   sQ_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sM_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sL_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sA_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)⟩

def stB (c : Dev nD) (t : Fin cfg1.N) (hc0 : ¬cond1_0 (grid1.coords t)) (hc1 : ¬cond1_1 (grid1.coords t)) (p : St1 F) : St1 F :=
  ⟨noOut, p.q,
   sM_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sL_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sA_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a⟩

def stC (c : Dev nD) (t : Fin cfg1.N) (hc0 : ¬cond1_0 (grid1.coords t)) (hc1 : cond1_1 (grid1.coords t)) (p : St1 F) : St1 F :=
  ⟨sO_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a, p.q,
   sM_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sL_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sA_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a⟩

def outsAt1 (c : Dev nD) : (n : ℕ) → n < cfg1.N → St1 F
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else stA V c ⟨n + 1, hn⟩ ((hcond1_0 ⟨n + 1, hn⟩).mpr h0) (fun h => h1 ((hcond1_1 ⟨n + 1, hn⟩).mp h))
    else
      if h1 : (n + 1) % 4 = 3 then stC V c ⟨n + 1, hn⟩ (fun h => h0 ((hcond1_0 ⟨n + 1, hn⟩).mp h)) ((hcond1_1 ⟨n + 1, hn⟩).mpr h1) (outsAt1 c n (Nat.lt_of_succ_lt hn))
      else stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 4 = 0) (h1 : ¬t.val % 4 = 3) :
    outsAt1 V c t.val t.isLt = stA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scQ fullShare (outsAt1 V c n hn).q ∗ owns (c : Thread nD τ) scM fullShare (outsAt1 V c n hn).m ∗ owns (c : Thread nD τ) scL fullShare (outsAt1 V c n hn).l ∗ owns (c : Thread nD τ) scA fullShare (outsAt1 V c n hn).a) ∗ Rest1 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scQ fullShare (outsAt1 V c n hn).q ∗ owns (c : Thread nD τ) scM fullShare (outsAt1 V c n hn).m ∗ owns (c : Thread nD τ) scL fullShare (outsAt1 V c n hn).l ∗ owns (c : Thread nD τ) scA fullShare (outsAt1 V c n hn).a) ∗ Rest1 c ∗ (∃ r, prngReg c r)) := rfl

theorem PhiS_pos (c : Dev nD) (n : ℕ) (h : n ≤ cfg1.N) (hz : n ≠ 0) :
    PhiS V c n h = iprop(iprop(owns (c : Thread nD τ) scQ fullShare (outsAt1 V c (n - 1) (by omega)).q ∗ owns (c : Thread nD τ) scM fullShare (outsAt1 V c (n - 1) (by omega)).m ∗ owns (c : Thread nD τ) scL fullShare (outsAt1 V c (n - 1) (by omega)).l ∗ owns (c : Thread nD τ) scA fullShare (outsAt1 V c (n - 1) (by omega)).a) ∗ Rest1 c ∗ (∃ r, prngReg c r)) := by
  cases n with
  | zero => exact absurd rfl hz
  | succ n => rfl

def q1 : Fin cfg1.W → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).out
  Φ t := PhiS V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).out := by dsimp only [dat1]

end Cert.Kernel.Hand

end
-- ==== Proof.K.R1Frame.lean ====
/- The attention region's body obligation: at every grid point the body runs from the invariant to the invariant at the next point. -/
import proofs.«401092_j26680336843340_3_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- At any point the invariant gives the region's entry resources back: what the scratch buffers hold is forgotten. -/
theorem PhiS_out (c : Dev nD) (n : ℕ) (h : n ≤ cfg1.N) : PhiS V c n h ⊢ (Pipeline.ΦA spec1 c : sProp 𝕄) := by
  by_cases hz : n = 0
  · rw [PhiS_zero V c n h hz]
  rw [PhiS_pos V c _ _ hz]
  iintro ⟨⟨HQ, HM, HL, HA⟩, HR, Hg⟩
  iapply (PhiA1_join c)
  isplitl [HQ HM HL HA]
  · isplitl [HQ]; · iexists _; iexact HQ
    isplitl [HM]; · iexists _; iexact HM
    isplitl [HL]; · iexists _; iexact HL
    iexists _; iexact HA
  isplitl [HR]; · iexact HR
  iexact Hg

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ, PhiS_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1), outsAt1_A V c t h0 h1]
    dsimp only [stA]
    unfold sQ_A sM_A sL_A sA_A
    iintro ⟨HΦ, Ho, ⟨%d0, H0⟩, ⟨%d1, H1⟩, ⟨%d2, H2⟩, ⟨%d3, H3⟩⟩
    ihave HΦ := (PhiS_out V c _ _) $$ HΦ
    ihave HΦ := (PhiA1_split c) $$ HΦ
    icases HΦ with ⟨⟨HQ, HM, HL, HA⟩, HR, Hg⟩
    obtain ⟨cQ, cM, cL, cA⟩ := covers_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)
    iapply ((kernelRun1_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HQ]; · iexact HQ
    isplitl [HM]; · iexact HM
    isplitl [HL]; · iexact HL
    isplitl [HA]; · iexact HA
    iintro ⟨H0, H1, H2, H3, ⟨%eQ, HQ⟩, ⟨%eM, HM⟩, ⟨%eL, HL⟩, ⟨%eA, HA⟩⟩
    isplitl [HQ HM HL HA HR Hg]
    · isplitl [HQ HM HL HA]
      · isplitl [HQ]
        · unfold owns; iexists _; isplitr
          swap; · iexact HQ
          ipureintro; exact View.read_writes_of_cover _ _ _ _ _ cQ
        isplitl [HM]
        · unfold owns; iexists _; isplitr
          swap; · iexact HM
          ipureintro; exact View.read_writes_of_cover _ _ _ _ _ cM
        isplitl [HL]
        · unfold owns; iexists _; isplitr
          swap; · iexact HL
          ipureintro; exact View.read_writes_of_cover _ _ _ _ _ cL
        unfold owns; iexists _; isplitr
        swap; · iexact HA
        ipureintro; exact View.read_writes_of_cover _ _ _ _ _ cA
      isplitl [HR]; · iexact HR
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hz : t.val ≠ 0 := fun hz => h0 (by rw [hz])
    rw [PhiS_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, outsAt1_C V c t h0 h1]
      dsimp only [stC]
      unfold sO_C sM_C sL_C sA_C
      iintro ⟨⟨⟨HQ, HM, HL, HA⟩, HR, Hg⟩, Ho, ⟨%d0, H0⟩, ⟨%d1, H1⟩, ⟨%d2, H2⟩, ⟨%d3, H3⟩⟩
      obtain ⟨cO, cM, cL, cA⟩ := covers_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a
      iapply ((kernelRun1_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a).2.2.2.2 Set.univ _)
      isplitl [H0]; · iexact H0
      isplitl [H1]; · iexact H1
      isplitl [H2]; · iexact H2
      isplitl [H3]; · iexists _; iexact H3
      isplitl [HQ]; · iexact HQ
      isplitl [HM]; · iexact HM
      isplitl [HL]; · iexact HL
      isplitl [HA]; · iexact HA
      iintro ⟨H0, H1, H2, ⟨%e3, H3⟩, HQ, ⟨%eM, HM⟩, ⟨%eL, HL⟩, ⟨%eA, HA⟩⟩
      isplitl [HQ HM HL HA HR Hg]
      · isplitl [HQ HM HL HA]
        · isplitl [HQ]; · iexact HQ
          isplitl [HM]
          · unfold owns; iexists _; isplitr
            swap; · iexact HM
            ipureintro; exact View.read_writes_of_cover _ _ _ _ _ cM
          isplitl [HL]
          · unfold owns; iexists _; isplitr
            swap; · iexact HL
            ipureintro; exact View.read_writes_of_cover _ _ _ _ _ cL
          unfold owns; iexists _; isplitr
          swap; · iexact HA
          ipureintro; exact View.read_writes_of_cover _ _ _ _ _ cA
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ cO
    · have hc1 : ¬cond1_1 (grid1.coords t) := fun h => h1 ((hcond1_1 t).mp h)
      rw [Dat.leavesExact_idle (dat1 V c) 3 t (idleAt1_3 t hc1) (noFlush1_3 t hc1), outsAt1_B V c t h0 h1]
      dsimp only [stB]
      unfold sM_B sL_B sA_B
      iintro ⟨⟨⟨HQ, HM, HL, HA⟩, HR, Hg⟩, Ho, ⟨%d0, H0⟩, ⟨%d1, H1⟩, ⟨%d2, H2⟩, ⟨%d3, H3⟩⟩
      obtain ⟨cM, cL, cA⟩ := covers_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a
      iapply ((kernelRun1_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a).2.2.2 _ Set.univ _)
      isplitl [H0]; · iexact H0
      isplitl [H1]; · iexact H1
      isplitl [H2]; · iexact H2
      isplitl [H3]; · iexact H3
      isplitl [HQ]; · iexact HQ
      isplitl [HM]; · iexact HM
      isplitl [HL]; · iexact HL
      isplitl [HA]; · iexact HA
      iintro ⟨H0, H1, H2, H3, HQ, ⟨%eM, HM⟩, ⟨%eL, HL⟩, ⟨%eA, HA⟩⟩
      isplitl [HQ HM HL HA HR Hg]
      · isplitl [HQ HM HL HA]
        · isplitl [HQ]; · iexact HQ
          isplitl [HM]
          · unfold owns; iexists _; isplitr
            swap; · iexact HM
            ipureintro; exact View.read_writes_of_cover _ _ _ _ _ cM
          isplitl [HL]
          · unfold owns; iexists _; isplitr
            swap; · iexact HL
            ipureintro; exact View.read_writes_of_cover _ _ _ _ _ cL
          unfold owns; iexists _; isplitr
          swap; · iexact HA
          ipureintro; exact View.read_writes_of_cover _ _ _ _ _ cA
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact PhiS_out V c _ _

end Cert.Kernel.Hand

end
-- ==== Proof.K.Run.lean ====
/- The whole program's run at any float instance: three kernel regions among four host reshapes. -/
import proofs.«401092_j26680336843340_3_alg».proof.Proof.K.Reg0
import proofs.«401092_j26680336843340_3_alg».proof.Proof.K.Reg2
import proofs.«401092_j26680336843340_3_alg».proof.Proof.K.R1Frame
import proofs.«401092_j26680336843340_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def X1 (c : Dev nD) : Valuation τ sig (Elt F) := StableHlo.after hostOps0 (fun b => m (c, b))

def X2 (c : Dev nD) : Valuation τ sig (Elt F) :=
  Function.update (X1 m c) main_v1 ((dat0 (fun c b => X1 m c b) c).arrAt 2 cfg0.N)

def X3 (c : Dev nD) : Valuation τ sig (Elt F) := StableHlo.after hostOps1 (X2 m c)

def X4 (c : Dev nD) : Valuation τ sig (Elt F) :=
  Function.update (X3 m c) main_v3 ((dat1 (fun c b => X3 m c b) c).arrAt 3 cfg1.N)

def X5 (c : Dev nD) : Valuation τ sig (Elt F) := StableHlo.after hostOps2 (X4 m c)

def X6 (c : Dev nD) : Valuation τ sig (Elt F) :=
  Function.update (X5 m c) main_v5 ((dat2 (fun c b => X5 m c b) c).arrAt 3 cfg2.N)

def X7 (c : Dev nD) : Valuation τ sig (Elt F) := StableHlo.after hostOps3 (X6 m c)

theorem X1_of (c : Dev nD) (r : Ref sig .tc) (h : r ∉ hostOps0_W) : X1 m c r = m ((c : Thread nD τ).loc r) :=
  StableHlo.after_of_writes_sub hostOps0 _ hostOps0_writes h
theorem X2_of (c : Dev nD) (r : Ref sig .tc) (h : r ∉ ([main_v1] : List (Ref sig .tc))) : X2 m c r = X1 m c r := by
  unfold X2; exact Function.update_of_ne (StableHlo.devRef_ne_of_ne (List.ne_of_not_mem_cons h)) _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ∉ ([main_v3] : List (Ref sig .tc))) : X4 m c r = X3 m c r := by
  unfold X4; exact Function.update_of_ne (StableHlo.devRef_ne_of_ne (List.ne_of_not_mem_cons h)) _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ∉ ([main_v5] : List (Ref sig .tc))) : X6 m c r = X5 m c r := by
  unfold X6; exact Function.update_of_ne (StableHlo.devRef_ne_of_ne (List.ne_of_not_mem_cons h)) _ _
theorem X7_of (c : Dev nD) (r : Ref sig .tc) (h : r ∉ hostOps3_W) : X7 m c r = X6 m c r :=
  StableHlo.after_of_writes_sub hostOps3 _ hostOps3_writes h

theorem X2_main_v1 (c : Dev nD) : X2 m c main_v1 = (dat0 (fun c b => X1 m c b) c).arrAt 2 cfg0.N := by
  unfold X2; exact Function.update_self ..
theorem X4_main_v3 (c : Dev nD) : X4 m c main_v3 = (dat1 (fun c b => X3 m c b) c).arrAt 3 cfg1.N := by
  unfold X4; exact Function.update_self ..
theorem X6_main_v5 (c : Dev nD) : X6 m c main_v5 = (dat2 (fun c b => X5 m c b) c).arrAt 3 cfg2.N := by
  unfold X6; exact Function.update_self ..

theorem X1_main_arg1 (c : Dev nD) : X1 m c main_arg1 = m ((c : Thread nD τ).loc main_arg1) := X1_of m c main_arg1 (by decide)
theorem X5_main_arg2 (c : Dev nD) : X5 m c main_arg2 = m ((c : Thread nD τ).loc main_arg2) :=
  (X5_of m c main_arg2 (by decide)).trans <| (X4_of m c main_arg2 (by decide)).trans <| (X3_of m c main_arg2 (by decide)).trans <|
    (X2_of m c main_arg2 (by decide)).trans <| X1_of m c main_arg2 (by decide)
theorem X5_main_arg3 (c : Dev nD) : X5 m c main_arg3 = m ((c : Thread nD τ).loc main_arg3) :=
  (X5_of m c main_arg3 (by decide)).trans <| (X4_of m c main_arg3 (by decide)).trans <| (X3_of m c main_arg3 (by decide)).trans <|
    (X2_of m c main_arg3 (by decide)).trans <| X1_of m c main_arg3 (by decide)

theorem X7_of_unwritten (c : Dev nD) (r : Ref sig .tc) (h0 : r ∉ hostOps0_W) (h1 : r ∉ ([main_v1] : List (Ref sig .tc))) (h2 : r ∉ hostOps1_W)
    (h3 : r ∉ ([main_v3] : List (Ref sig .tc))) (h4 : r ∉ hostOps2_W) (h5 : r ∉ ([main_v5] : List (Ref sig .tc))) (h6 : r ∉ hostOps3_W) :
    X7 m c r = m ((c : Thread nD τ).loc r) :=
  (X7_of m c r h6).trans <| (X6_of m c r h5).trans <| (X5_of m c r h4).trans <| (X4_of m c r h3).trans <| (X3_of m c r h2).trans <|
    (X2_of m c r h1).trans <| X1_of m c r h0
theorem X7_main_arg0 (c : Dev nD) : X7 m c main_arg0 = m ((c : Thread nD τ).loc main_arg0) :=
  X7_of_unwritten m c main_arg0 (by decide) (by decide) (by decide) (by decide) (by decide) (by decide) (by decide)
theorem X7_main_arg1 (c : Dev nD) : X7 m c main_arg1 = m ((c : Thread nD τ).loc main_arg1) :=
  X7_of_unwritten m c main_arg1 (by decide) (by decide) (by decide) (by decide) (by decide) (by decide) (by decide)
theorem X7_main_arg2 (c : Dev nD) : X7 m c main_arg2 = m ((c : Thread nD τ).loc main_arg2) :=
  X7_of_unwritten m c main_arg2 (by decide) (by decide) (by decide) (by decide) (by decide) (by decide) (by decide)
theorem X7_main_arg3 (c : Dev nD) : X7 m c main_arg3 = m ((c : Thread nD τ).loc main_arg3) :=
  X7_of_unwritten m c main_arg3 (by decide) (by decide) (by decide) (by decide) (by decide) (by decide) (by decide)

theorem X1_main_v0 (c : Dev nD) :
    (X1 m c main_v0 : Vec F S8192x768 .f32)
      = shapeCast S8192x768 (m ((c : Thread nD τ).loc main_arg0) : Vec F S4x2048x768 .f32) shapeCasts_S4x2048x768_S8192x768 := by
  unfold X1; dsimp only [hostOps0]; after_results; rfl
theorem X3_main_v2 (c : Dev nD) :
    (X3 m c main_v2 : Vec F S4x2048x2304 .bf16)
      = shapeCast S4x2048x2304 (X2 m c main_v1 : Vec F S8192x2304 .bf16) shapeCasts_S8192x2304_S4x2048x2304 := by
  unfold X3; dsimp only [hostOps1]; after_results; rfl
theorem X5_main_v4 (c : Dev nD) :
    (X5 m c main_v4 : Vec F S8192x768 .bf16)
      = shapeCast S8192x768 (X4 m c main_v3 : Vec F S4x2048x768 .bf16) shapeCasts_S4x2048x768_S8192x768 := by
  unfold X5; dsimp only [hostOps2]; after_results; rfl

theorem result_eq (c : Dev nD) :
    (X7 m c main_v6 : Vec F S4x2048x768 .f32)
      = shapeCast S4x2048x768 (X6 m c main_v5 : Vec F S8192x768 .f32) shapeCasts_S8192x768_S4x2048x768 := by
  unfold X7; dsimp only [hostOps3]; after_results; rfl
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

theorem arrays1_eq (c : Dev nD) (dat : Dat τ (Elt F) Unit ℕ (UR sig nD τ) ℕ cfg1 c)
    (V : (b : Ref sig .tc) → Buf (Elt F) ((c : Thread nD τ).loc b)) :
    (dat.arrays (fun w => V (Pipeline.arrRef spec1 w)) : sProp 𝕄)
      = iprop((((c : Thread nD τ).loc main_v2) ↦{dat.share 0} V main_v2) ∗ (((c : Thread nD τ).loc main_v2) ↦{dat.share 1} V main_v2)
          ∗ (((c : Thread nD τ).loc main_v2) ↦{dat.share 2} V main_v2) ∗ (((c : Thread nD τ).loc main_v3) ↦{dat.share 3} V main_v3)) := by
  unfold Pipeline.Dat.arrays
  rw [bigSep_W1, (arr_whole1 0).set_eq_univ, (arr_whole1 3).set_eq_univ]

theorem fullShare_thirds (ℓ : Loc nD τ sig) (f : Buf (Elt F) ℓ) :
    ((ℓ ↦{fullShare} f : sProp 𝕄))
      ⊣⊢ iprop((ℓ ↦{fullShare.left} f) ∗ (ℓ ↦{fullShare.right.left} f) ∗ (ℓ ↦{fullShare.right.right} f)) := by
  have cut1 : ((ℓ ↦{fullShare} f : sProp 𝕄)) ⊣⊢ iprop((ℓ ↦{fullShare.left} f) ∗ (ℓ ↦{fullShare.right} f)) :=
    pointsTo_share (PosShare.mem_left_op_right fullShare)
  have cut2 : ((ℓ ↦{fullShare.right} f : sProp 𝕄)) ⊣⊢ iprop((ℓ ↦{fullShare.right.left} f) ∗ (ℓ ↦{fullShare.right.right} f)) :=
    pointsTo_share (PosShare.mem_left_op_right fullShare.right)
  constructor
  · iintro H
    ihave H := cut1.mp $$ H
    icases H with ⟨Ha, Hbc⟩
    ihave H := cut2.mp $$ Hbc
    icases H with ⟨Hb, Hc⟩
    isplitl [Ha]; · iexact Ha
    isplitl [Hb]; · iexact Hb
    iexact Hc
  · iintro ⟨Ha, Hb, Hc⟩
    iapply cut1.mpr
    isplitl [Ha]; · iexact Ha
    iapply cut2.mpr
    isplitl [Hb]; · iexact Hb
    iexact Hc

section Shares

variable (c : Dev nD) (dat : Dat τ (Elt F) Unit ℕ (UR sig nD τ) ℕ cfg1 c)
  (hq0 : dat.share 0 = fullShare.left) (hq1 : dat.share 1 = fullShare.right.left) (hq2 : dat.share 2 = fullShare.right.right)
  (hq3 : dat.share 3 = fullShare)

include hq0 hq1 hq2 hq3

theorem arrays1_of_arrBufs (V : (b : Ref sig .tc) → Buf (Elt F) ((c : Thread nD τ).loc b)) :
    (Pipeline.arrBufs (Ix := Unit) (Name := ℕ) (U := UR sig nD τ) (Lvl := ℕ) spec1 c V : sProp 𝕄)
      ⊢ dat.arrays (fun w => V (Pipeline.arrRef spec1 w)) := by
  rw [arrBufs1_eq, arrays1_eq, hq0, hq1, hq2, hq3]
  iintro ⟨H2, H3⟩
  ihave H := (fullShare_thirds ((c : Thread nD τ).loc main_v2) (V main_v2)).mp $$ H2
  icases H with ⟨Ha, Hb, Hc⟩
  isplitl [Ha]; · iexact Ha
  isplitl [Hb]; · iexact Hb
  isplitl [Hc]; · iexact Hc
  iexact H3

theorem arrBufs1_of_arrays (V : (b : Ref sig .tc) → Buf (Elt F) ((c : Thread nD τ).loc b)) :
    (dat.arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq, hq0, hq1, hq2, hq3]
  iintro ⟨Ha, Hb, Hc, H3⟩
  isplitr [H3]
  · iapply (fullShare_thirds ((c : Thread nD τ).loc main_v2) (V main_v2)).mpr
    isplitl [Ha]; · iexact Ha
    isplitl [Hb]; · iexact Hb
    iexact Hc
  iexact H3

theorem arrays1_of_unscopedBufs (V : (b : Ref sig .tc) → Buf (Elt F) ((c : Thread nD τ).loc b)) :
    (unscopedBufs c V : sProp 𝕄)
      ⊢ iprop(dat.arrays (fun w => V (Pipeline.arrRef spec1 w)) ∗ Pipeline.unscopedRest spec1 c V) := by
  rw [Pipeline.unscopedBufs_split₀ cfgs 1 winFacts₀1.arr_unscoped c V]
  exact sep_mono (arrays1_of_arrBufs c dat hq0 hq1 hq2 hq3 V) .rfl

theorem unscopedBufs_of_arrays1 (V V' : (b : Ref sig .tc) → Buf (Elt F) ((c : Thread nD τ).loc b))
    (hrest : ∀ b, b ∉ Finset.univ.image (Pipeline.arrRef spec1) → V' b = V b) :
    iprop(dat.arrays (fun w => V' (Pipeline.arrRef spec1 w)) ∗ Pipeline.unscopedRest spec1 c V)
      ⊢ (unscopedBufs c V' : sProp 𝕄) := by
  rw [Pipeline.unscopedBufs_split₀ cfgs 1 winFacts₀1.arr_unscoped c V']
  refine sep_mono (arrBufs1_of_arrays c dat hq0 hq1 hq2 hq3 V') (Entails.of_eq ?_)
  unfold Pipeline.unscopedRest
  exact bigSep_congr fun b hb => by rw [hrest b (Finset.mem_sdiff.mp hb).2]

end Shares

def runDats : (p : Fin 3) → (c : Dev nD) → Dat τ (Elt F) Unit ℕ (UR sig nD τ) ℕ (Pipeline.pin (pcfgs (F := F)) adm p) c
  | ⟨0, _⟩ => fun c => dat0 (fun c b => X1 m c b) c
  | ⟨1, _⟩ => fun c => dat1 (fun c b => X3 m c b) c
  | ⟨2, _⟩ => fun c => dat2 (fun c b => X5 m c b) c

abbrev runVar : Variants := Variants.none

abbrev runL : GSem nD τ sig → Finset Unit := fun _ => ∅
abbrev runLv : GSem nD τ sig → Unit → ℕ := fun _ _ => 0

abbrev runSide (c : Dev nD) : sProp 𝕄 :=
  iprop((∃ r, prngReg c r) ∗ ∃ W, owes (c : Thread nD τ) (0 : CellTallies nD τ sig Unit) W)

abbrev runAt (W : Dev nD → Valuation τ sig (Elt F)) (c : Dev nD) : sProp 𝕄 :=
  iprop(StableHlo.held (c : Thread nD τ) (Pipeline.ucRefs τ sig) (W c) ∗ runSide c)

abbrev runHost (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ runVar runL runLv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W runSide

theorem runF0 (c : Dev nD) (w : Fin cfg0.W) :
    (dat0 (fun c b => X1 m c b) c).arrAt w cfg0.N = (fun b : Ref sig .tc => X2 m c b) (Pipeline.arrRef spec0 w) :=
  match w with
  | ⟨0, _⟩ => (((dat0 (fun c b => X1 m c b) c).arrAt_in 0 rfl _).trans (A_eq0 (fun c b => X1 m c b) c 0)).trans (X2_of m c _ (by decide)).symm
  | ⟨1, _⟩ => (((dat0 (fun c b => X1 m c b) c).arrAt_in 1 rfl _).trans (A_eq0 (fun c b => X1 m c b) c 1)).trans (X2_of m c _ (by decide)).symm
  | ⟨2, _⟩ => (X2_main_v1 m c).symm
theorem runRest0 (c : Dev nD) : ∀ b : Ref sig .tc, b ∉ Finset.univ.image (Pipeline.arrRef spec0) → X2 m c b = X1 m c b :=
  fun b hb => X2_of m c b fun h => hb (by
    rw [List.mem_singleton] at h; subst h
    exact Finset.mem_image.mpr ⟨2, Finset.mem_univ _, rfl⟩)

theorem runF1 (c : Dev nD) (w : Fin cfg1.W) :
    (dat1 (fun c b => X3 m c b) c).arrAt w cfg1.N = (fun b : Ref sig .tc => X4 m c b) (Pipeline.arrRef spec1 w) :=
  match w with
  | ⟨0, _⟩ => (((dat1 (fun c b => X3 m c b) c).arrAt_in 0 rfl _).trans (A_eq1 (fun c b => X3 m c b) c 0)).trans (X4_of m c _ (by decide)).symm
  | ⟨1, _⟩ => (((dat1 (fun c b => X3 m c b) c).arrAt_in 1 rfl _).trans (A_eq1 (fun c b => X3 m c b) c 1)).trans (X4_of m c _ (by decide)).symm
  | ⟨2, _⟩ => (((dat1 (fun c b => X3 m c b) c).arrAt_in 2 rfl _).trans (A_eq1 (fun c b => X3 m c b) c 2)).trans (X4_of m c _ (by decide)).symm
  | ⟨3, _⟩ => (X4_main_v3 m c).symm
theorem runRest1 (c : Dev nD) : ∀ b : Ref sig .tc, b ∉ Finset.univ.image (Pipeline.arrRef spec1) → X4 m c b = X3 m c b :=
  fun b hb => X4_of m c b fun h => hb (by
    rw [List.mem_singleton] at h; subst h
    exact Finset.mem_image.mpr ⟨3, Finset.mem_univ _, rfl⟩)

theorem runF2 (c : Dev nD) (w : Fin cfg2.W) :
    (dat2 (fun c b => X5 m c b) c).arrAt w cfg2.N = (fun b : Ref sig .tc => X6 m c b) (Pipeline.arrRef spec2 w) :=
  match w with
  | ⟨0, _⟩ => (((dat2 (fun c b => X5 m c b) c).arrAt_in 0 rfl _).trans (A_eq2 (fun c b => X5 m c b) c 0)).trans (X6_of m c _ (by decide)).symm
  | ⟨1, _⟩ => (((dat2 (fun c b => X5 m c b) c).arrAt_in 1 rfl _).trans (A_eq2 (fun c b => X5 m c b) c 1)).trans (X6_of m c _ (by decide)).symm
  | ⟨2, _⟩ => (((dat2 (fun c b => X5 m c b) c).arrAt_in 2 rfl _).trans (A_eq2 (fun c b => X5 m c b) c 2)).trans (X6_of m c _ (by decide)).symm
  | ⟨3, _⟩ => (X6_main_v5 m c).symm
theorem runRest2 (c : Dev nD) : ∀ b : Ref sig .tc, b ∉ Finset.univ.image (Pipeline.arrRef spec2) → X6 m c b = X5 m c b :=
  fun b hb => X6_of m c b fun h => hb (by
    rw [List.mem_singleton] at h; subst h
    exact Finset.mem_image.mpr ⟨3, Finset.mem_univ _, rfl⟩)

theorem runOwesIn {cfg : Cfg sig Λ₀} {c : Dev nD} (dat : Dat τ (Elt F) Unit ℕ (UR sig nD τ) ℕ cfg c) (t : Fin (cfg.N + 1))
    (howed : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  iintro ⟨%W, HO⟩
  iexists W
  isplitr
  · ipureintro; exact fun x _ => Or.inl (by rw [hrec]; trivial)
  rw [howed]; iexact HO

theorem runOwesOut {cfg : Cfg sig Λ₀} {c : Dev nD} (dat : Dat τ (Elt F) Unit ℕ (UR sig nD τ) ℕ cfg c) (t : Fin (cfg.N + 1))
    (howed : dat.owed t = 0) :
    dat.owesAt () t ⊢ (iprop(∃ W, owes (c : Thread nD τ) (0 : CellTallies nD τ sig Unit) W) : sProp 𝕄) := by
  unfold Pipeline.Dat.owesAt Pipeline.owesWithin
  iintro ⟨%W, -, HO⟩
  iexists W
  rw [howed]; iexact HO

set_option backward.isDefEq.respectTransparency.types false in

def runReg0 : RegionSeg (pcfgs (F := F)) adm (runDats m) () defs₀ runVar runL runLv 0 where
  win := launch0.win.to₀
  block_pos := launch0.block_pos
  stage_whole := launch0.stage_whole
  K := PEmpty
  osem k := k.elim
  ho := Pipeline.OwnSemFacts.none _
  hbody c := (body_obligation0 (fun c b => X1 m c b) c).loose
  hwaits := Pipeline.hwaits_of_owed_zero _ _ _ _ runL runLv 0 fun _ _ => rfl
  pre := runAt (X1 m ·)
  post := runAt (X2 m ·)
  X c := iprop(∃ r, prngReg c r)
  Y c := iprop(∃ r, prngReg c r)
  Z c := Pipeline.unscopedRest (Ix := Unit) (Name := ℕ) (U := UR sig nD τ) (Lvl := ℕ) spec0 c (fun b => X1 m c b)
  hentry c := by
    rw [Pipeline.ownSems0_none]
    have hsplit := Pipeline.arrays_of_unscopedBufs (p := 0) (pcfgs (F := F)) adm (runDats m) launch0.win launch0.arr_whole c
      ((runDats m 0 c).share_full fun _ => rfl) (fun b => X1 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 0 c) 0 rfl rfl); iexact Howes
    isplitl [Hprng]; · iexact Hprng
    iexact Hrest
  hin c := by
    rw [show (runDats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (runDats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (runDats m) ((runDats m 0 c).share_full fun _ => rfl)
      (fun b => X1 m c b) (fun b => X2 m c b) ((runDats m 0 c).arrAt · cfg0.N) (runF0 m c) (runRest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (runOwesOut (runDats m 0 c) (Fin.last _) rfl); iexact Howes

set_option backward.isDefEq.respectTransparency.types false in

def runReg1 : RegionSeg (pcfgs (F := F)) adm (runDats m) () defs₀ runVar runL runLv 1 where
  win := winFacts₀1
  block_pos := block_pos1
  stage_whole := stage_whole1
  K := PEmpty
  osem k := k.elim
  ho := Pipeline.OwnSemFacts.none _
  hbody c := (body_obligation1 (fun c b => X3 m c b) c).loose
  hwaits := Pipeline.hwaits_of_owed_zero _ _ _ _ runL runLv 1 fun _ _ => rfl
  pre := runAt (X3 m ·)
  post := runAt (X4 m ·)
  X c := iprop(∃ r, prngReg c r)
  Y c := iprop(∃ r, prngReg c r)
  Z c := Pipeline.unscopedRest (Ix := Unit) (Name := ℕ) (U := UR sig nD τ) (Lvl := ℕ) spec1 c (fun b => X3 m c b)
  hentry c := by
    rw [Pipeline.ownSems0_none]
    have hsplit := arrays1_of_unscopedBufs c (dat1 (fun c b => X3 m c b) c) rfl rfl rfl rfl (fun b => X3 m c b)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 1 c) 0 rfl rfl); iexact Howes
    isplitl [Hprng]; · iexact Hprng
    iexact Hrest
  hin c := by
    refine .trans ?_ (hin1 (fun c b => X3 m c b) c)
    unfold Pipeline.ΦA
    iintro ⟨Hprng, -, Hscoped⟩
    isplitl [Hscoped]; · iexact Hscoped
    iexact Hprng
  hout c := by
    rw [Pipeline.ownSems0_none]
    refine (hout1 (fun c b => X3 m c b) c).trans ?_
    unfold Pipeline.ΦA
    iintro ⟨Hscoped, Hprng⟩
    isplitl [Hprng]; · iexact Hprng
    isplitr; · iempintro
    iexact Hscoped
  hexit c := by
    have hjoin := unscopedBufs_of_arrays1 c (dat1 (fun c b => X3 m c b) c) rfl rfl rfl rfl (fun b => X3 m c b) (fun b => X4 m c b) (runRest1 m c)
    rw [Pipeline.unscopedBufs_held] at hjoin
    have hF : (fun w => (dat1 (fun c b => X3 m c b) c).arrAt w cfg1.N)
        = fun w => (fun b : Ref sig .tc => X4 m c b) (Pipeline.arrRef spec1 w) := funext (runF1 m c)
    iintro ⟨Harr, Howes, Hprng, Hrest⟩
    imodintro
    isplitl [Harr Hrest]
    · iapply hjoin
      isplitl [Harr]
      · iapply (Entails.of_eq (congrArg (dat1 (fun c b => X3 m c b) c).arrays hF)); iexact Harr
      iexact Hrest
    isplitl [Hprng]; · iexact Hprng
    iapply (runOwesOut (runDats m 1 c) (Fin.last _) rfl); iexact Howes

set_option backward.isDefEq.respectTransparency.types false in

def runReg2 : RegionSeg (pcfgs (F := F)) adm (runDats m) () defs₀ runVar runL runLv 2 where
  win := launch2.win.to₀
  block_pos := launch2.block_pos
  stage_whole := launch2.stage_whole
  K := PEmpty
  osem k := k.elim
  ho := Pipeline.OwnSemFacts.none _
  hbody c := (body_obligation2 (fun c b => X5 m c b) c).loose
  hwaits := Pipeline.hwaits_of_owed_zero _ _ _ _ runL runLv 2 fun _ _ => rfl
  pre := runAt (X5 m ·)
  post := runAt (X6 m ·)
  X c := iprop(∃ r, prngReg c r)
  Y c := iprop(∃ r, prngReg c r)
  Z c := Pipeline.unscopedRest (Ix := Unit) (Name := ℕ) (U := UR sig nD τ) (Lvl := ℕ) spec2 c (fun b => X5 m c b)
  hentry c := by
    rw [Pipeline.ownSems0_none]
    have hsplit := Pipeline.arrays_of_unscopedBufs (p := 2) (pcfgs (F := F)) adm (runDats m) launch2.win launch2.arr_whole c
      ((runDats m 2 c).share_full fun _ => rfl) (fun b => X5 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 2 c) 0 rfl rfl); iexact Howes
    isplitl [Hprng]; · iexact Hprng
    iexact Hrest
  hin c := by
    rw [show (runDats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (runDats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (runDats m) ((runDats m 2 c).share_full fun _ => rfl)
      (fun b => X5 m c b) (fun b => X6 m c b) ((runDats m 2 c).arrAt · cfg2.N) (runF2 m c) (runRest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (runOwesOut (runDats m 2 c) (Fin.last _) rfl); iexact Howes

abbrev runSegs : List (Seg (pcfgs (F := F)) adm (runDats m) () defs₀ runVar runL runLv) :=
  [ .host (runHost hostOps0 hostOps0_sub hostOps0_fresh (fun c b => m (c, b))),
    .region (runReg0 m),
    .host (runHost hostOps1 hostOps1_sub hostOps1_fresh (X2 m ·)),
    .region (runReg1 m),
    .host (runHost hostOps2 hostOps2_sub hostOps2_fresh (X4 m ·)),
    .region (runReg2 m),
    .host (runHost hostOps3 hostOps3_sub hostOps3_fresh (X6 m ·)) ]

theorem main_run (c : Dev nD) : main (F := F) c = Seg.run (runSegs m) := (main_chain c).trans (by chain_rfl)

theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev runEnd (c : Dev nD) : sProp 𝕄 :=
  iprop(StableHlo.held (c : Thread nD τ) (Pipeline.ucRefs τ sig) (X7 m c) ∗ ∃ r, prngReg c r)

theorem runEnd_of (c : Dev nD) :
    runAt (X7 m ·) c ⊢ iprop(runEnd m c ∗ ∃ W, owes (c : Thread nD τ) (0 : CellTallies nD τ sig Unit) W) := by
  iintro ⟨Hh, Hprng, Howes⟩
  isplitr [Howes]
  · isplitl [Hh]; · iexact Hh
    iexact Hprng
  iexact Howes

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = X7 m c b) :=
  Pipeline.θ_run_regions_kit (pcfgs (F := F)) adm (runDats m) () cellOf_inj emb₁ defs₀ runVar runL runLv m ρ main (runSegs m)
    (fun c Q => by rw [main_run m c])
    (by simp only [runSegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := runAt (fun c b => m (c, b))) (Tₙ := runEnd m)
    (hch := ⟨fun _ => .rfl, fun _ => .rfl, fun _ => .rfl, fun _ => .rfl, fun _ => .rfl, fun _ => .rfl, fun _ => .rfl, fun c => runEnd_of m c⟩)
    (hinit := by
      refine Pipeline.initEach runL runLv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, Howes, -, Hprng, -⟩, -⟩
      imodintro
      isplitl [Hh]; · iexact Hh
      isplitl [Hprng]; · iexists _; iexact Hprng
      iexists ∅; iexact Howes)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (run_mem_uc main_arg0 (by decide))).trans (X7_main_arg0 m c), (h c _ (run_mem_uc main_arg1 (by decide))).trans (X7_main_arg1 m c),
     (h c _ (run_mem_uc main_arg2 (by decide))).trans (X7_main_arg2 m c), (h c _ (run_mem_uc main_arg3 (by decide))).trans (X7_main_arg3 m c)⟩)
    (run_all m ρ)

end Cert.Kernel.Hand

end
-- ==== Proof.KI.Reg0.lean ====
/- The packed projection region: its body obligation at every grid point. -/
import proofs.«401092_j26680336843340_3_alg».proof.Proof.Gen.KernelIdeal.Launch
import proofs.«401092_j26680336843340_3_alg».proof.Proof.Gen.KernelIdeal.Skeleton
import proofs.«401092_j26680336843340_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

abbrev rX : Rect S1024x768 := Rect.unit (s := S1024x768) ![0, 0] S1024x768.size inb_S1024x768_S1024x768_0_0
abbrev rW : Rect S768x2304 := Rect.unit (s := S768x2304) ![0, 0] S768x2304.size inb_S768x2304_S768x2304_0_0
abbrev rO : Rect S1024x2304 := Rect.unit (s := S1024x2304) ![0, 0] S1024x2304.size inb_S1024x2304_S1024x2304_0_0

def out0_2 (x0 : Vec F S1024x768 .f32) (x1 : Vec F S768x2304 .f32) : Vec F S1024x2304 .bf16 :=
  View.canon [⟨rO, k0_pay1 (View.ld x0 rX) (View.ld x1 rW)⟩]

theorem cover0_2 (p : Vec F S1024x2304 .bf16) (y : S1024x2304.Idx) :
    ∃ pc ∈ ([⟨rO, p⟩] : List (View.Piece (Elt F) S1024x2304 .bf16)), y ∈ pc.1.set :=
  View.cover_of_tiled [⟨rO, p⟩] S1024x2304.size (by rfl) y

set_option maxHeartbeats 1000000 in

theorem sound_kernel0 (c : Dev nD) (E : Set ℕ) (arg1 : Memref sig .tc .vmem S1024x768 .f32) (harg1 : arg1.IsWhole)
    (arg2 : Memref sig .tc .vmem S768x2304 .f32) (harg2 : arg2.IsWhole) (arg3 : Memref sig .tc .vmem S1024x2304 .bf16) (harg3 : arg3.IsWhole)
    (i : grid0.Coords) (x0 : Vec F S1024x768 .f32) (x1 : Vec F S768x2304 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
/- The output projection region: its body obligation at every grid point. -/
import proofs.«401092_j26680336843340_3_alg».proof.Proof.Gen.KernelIdeal.Launch
import proofs.«401092_j26680336843340_3_alg».proof.Proof.Gen.KernelIdeal.Skeleton
import proofs.«401092_j26680336843340_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rBlk : Rect S2048x768 := Rect.unit (s := S2048x768) ![0, 0] S2048x768.size inb_S2048x768_S2048x768_0_0

abbrev rWgt : Rect S768x768 := Rect.unit (s := S768x768) ![0, 0] S768x768.size inb_S768x768_S768x768_0_0

abbrev rBias : Rect S768 := Rect.unit (s := S768) ![0] S768.size inb_S768_S768_0

def out2_3 (x0 : Vec F S2048x768 .bf16) (x1 : Vec F S768x768 .f32) (x2 : Vec F S768 .f32) : Vec F S2048x768 .f32 :=
  View.canon [⟨rBlk, k2_pay1 (View.ld x1 rWgt) (View.ld x0 rBlk) (View.ld x2 rBias)⟩]

theorem cover2_3 (p0 : Vec F S2048x768 .f32) (y : S2048x768.Idx) :
    ∃ pc ∈ ([⟨rBlk, p0⟩] : List (View.Piece (Elt F) S2048x768 .f32)), y ∈ pc.1.set :=
  View.cover_of_tiled [⟨rBlk, p0⟩] S2048x768.size (by rfl) y

set_option maxHeartbeats 1000000 in

theorem sound_kernel2 (c : Dev nD) (E : Set ℕ) (i : grid2.Coords)
    (arg1 : Memref sig .tc .vmem S2048x768 .bf16) (harg1 : arg1.IsWhole) (arg2 : Memref sig .tc .vmem S768x768 .f32) (harg2 : arg2.IsWhole)
    (arg3 : Memref sig .tc .vmem S768 .f32) (harg3 : arg3.IsWhole) (arg4 : Memref sig .tc .vmem S2048x768 .f32) (harg4 : arg4.IsWhole)
    (x0 : Vec F S2048x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R1Base.lean ====
/- The attention region: its two branch conditions in closed form over the grid, and its entry resources with the four scratch buffers split out. -/
import proofs.«401092_j26680336843340_3_alg».proof.Proof.Gen.KernelIdeal.Launch
import proofs.«401092_j26680336843340_3_alg».proof.Proof.Gen.KernelIdeal.Skeleton
import proofs.«401092_j26680336843340_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel

theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev ms1_0 (t : Fin cfg1.N) : Memref sig .tc .vmem S1x2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x256 .bf16 := win1_3.stage (cfg1.slots t 3)
abbrev hs1_3 (t : Fin cfg1.N) : (ms1_3 t).IsWhole := hstage1_3 ((cfg1.slots t 3).cast nbuf1_3)

abbrev scQ : Memref sig .tc .vmem S1x2048x256 .bf16 := Memref.whole cc1_scratch0
abbrev scM : Memref sig .tc .vmem S2048x4 .f32 := Memref.whole cc1_scratch1
abbrev scL : Memref sig .tc .vmem S2048x4 .f32 := Memref.whole cc1_scratch2
abbrev scA : Memref sig .tc .vmem S2048x256 .f32 := Memref.whole cc1_scratch3

abbrev VO1 : View sig .tc .vmem S1x2048x256 .bf16 := (Memref.whole cc1_stg3_0 : Memref sig .tc .vmem S1x2048x256 .bf16).view
abbrev VQ : View sig .tc .vmem S1x2048x256 .bf16 := scQ.view
abbrev VM : View sig .tc .vmem S2048x4 .f32 := scM.view
abbrev VL : View sig .tc .vmem S2048x4 .f32 := scL.view
abbrev VA : View sig .tc .vmem S2048x256 .f32 := scA.view

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_split (c : Dev nD) :
    (Pipeline.ΦA spec1 c : sProp 𝕄)
      ⊢ iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ Rest1 c ∗ (∃ r, prngReg c r)) := by
  unfold Pipeline.ΦA Rest1; rw [scopedRest1_eq]; simp only [scQ, scM, scL, scA, owns_whole]
  iintro ⟨⟨A0, A1, A2, A3, A4, Q, M, L, A, B0, B1, B2, B3, B4, B5⟩, Hp⟩
  isplitl [Q M L A]
  · isplitl [Q]; · iexact Q
    isplitl [M]; · iexact M
    isplitl [L]; · iexact L
    iexact A
  isplitl [A0 A1 A2 A3 A4 B0 B1 B2 B3 B4 B5]
  · isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    iexact B5
  iexact Hp

theorem PhiA1_join (c : Dev nD) :
    iprop(iprop((∃ d, owns (c : Thread nD τ) scQ fullShare d) ∗ (∃ d, owns (c : Thread nD τ) scM fullShare d) ∗ (∃ d, owns (c : Thread nD τ) scL fullShare d) ∗ (∃ d, owns (c : Thread nD τ) scA fullShare d)) ∗ Rest1 c ∗ (∃ r, prngReg c r))
      ⊢ (Pipeline.ΦA spec1 c : sProp 𝕄) := by
  unfold Pipeline.ΦA Rest1; rw [scopedRest1_eq]; simp only [scQ, scM, scL, scA, owns_whole]
  iintro ⟨⟨Q, M, L, A⟩, ⟨A0, A1, A2, A3, A4, B0, B1, B2, B3, B4, B5⟩, Hp⟩
  isplitr [Hp]
  · isplitl [A0]; · iexact A0
    isplitl [A1]; · iexact A1
    isplitl [A2]; · iexact A2
    isplitl [A3]; · iexact A3
    isplitl [A4]; · iexact A4
    isplitl [Q]; · iexact Q
    isplitl [M]; · iexact M
    isplitl [L]; · iexact L
    isplitl [A]; · iexact A
    isplitl [B0]; · iexact B0
    isplitl [B1]; · iexact B1
    isplitl [B2]; · iexact B2
    isplitl [B3]; · iexact B3
    isplitl [B4]; · iexact B4
    iexact B5
  iexact Hp

end Cert.KernelIdeal.Hand

end
-- ==== Proof.KI.R1RunB.lean ====
/- The attention body at a middle key block, run once on whole memrefs. -/
import proofs.«401092_j26680336843340_3_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in

noncomputable def kernelRun1_B (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : ¬cond1_0 i) (hc1 : ¬cond1_1 i)
    (x0 : Vec F S1x2048x256 .bf16) (x1 x2 : Vec F S1x512x256 .bf16) (xs0 : Vec F S1x2048x256 .bf16) (xs1 xs2 : Vec F S2048x4 .f32) (xs3 : Vec F S2048x256 .f32) :
    Σ' (LM : List (View.Piece (Elt F) S2048x4 .f32)) (LL : List (View.Piece (Elt F) S2048x4 .f32)), { LA : List (View.Piece (Elt F) S2048x256 .f32) //
      ∀ (xi3 : Vec F S1x2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi3 E K => ?run⟩
  case run =>
    sl_unfold [cc1__flash_kernel]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Hand

end
-- ==== Proof.KI.R1RunA.lean ====
/- The attention body at a first key block, run once on whole memrefs. -/
import proofs.«401092_j26680336843340_3_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in

noncomputable def kernelRun1_A (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : cond1_0 i) (hc1 : ¬cond1_1 i)
    (x0 : Vec F S1x2048x256 .bf16) (x1 x2 : Vec F S1x512x256 .bf16) :
    Σ' (LQ : List (View.Piece (Elt F) S1x2048x256 .bf16)) (LM : List (View.Piece (Elt F) S2048x4 .f32)) (LL : List (View.Piece (Elt F) S2048x4 .f32)), { LA : List (View.Piece (Elt F) S2048x256 .f32) //
      ∀ (xi3 : Vec F S1x2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LQ) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun xi3 E K => ?run⟩
  case run =>
    sl_unfold [cc1__flash_kernel]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.R1RunC.lean ====
/- The attention body at a last key block, run once on whole memrefs. -/
import proofs.«401092_j26680336843340_3_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in

noncomputable def kernelRun1_C (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole) (hc0 : ¬cond1_0 i) (hc1 : cond1_1 i)
    (x0 : Vec F S1x2048x256 .bf16) (x1 x2 : Vec F S1x512x256 .bf16) (xs0 : Vec F S1x2048x256 .bf16) (xs1 xs2 : Vec F S2048x4 .f32) (xs3 : Vec F S2048x256 .f32) :
    Σ' (LO : List (View.Piece (Elt F) S1x2048x256 .bf16)) (LM : List (View.Piece (Elt F) S2048x4 .f32)) (LL : List (View.Piece (Elt F) S2048x4 .f32)), { LA : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xs0 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    sl_unfold [cc1__flash_kernel]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Hand

end
-- ==== Proof.KI.R1Defs.lean ====
/- The attention region's proof data: what each case of the body leaves, the carried state after each grid point, the invariant. -/
import proofs.«401092_j26680336843340_3_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pieces

variable (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S2048x4 .f32) (harg8 : arg8.IsWhole) (arg9 : Memref sig .tc .vmem S2048x4 .f32) (harg9 : arg9.IsWhole) (arg10 : Memref sig .tc .vmem S2048x256 .f32) (harg10 : arg10.IsWhole)

section A
variable (hc0 : cond1_0 i) (hc1 : ¬cond1_1 i) (x0 : Vec F S1x2048x256 .bf16) (x1 x2 : Vec F S1x512x256 .bf16)

def sQ_A : Vec F S1x2048x256 .bf16 :=
  VQ.read (Elt F) (VQ.writes (Elt F) VQ.junk (kernelRun1_A c i arg3 harg3 arg4 harg4 arg5 harg5 arg6 harg6 arg7 harg7 arg8 harg8 arg9 harg9 arg10 harg10 hc0 hc1 x0 x1 x2).1)

def sM_A : Vec F S2048x4 .f32 :=
  VM.read (Elt F) (VM.writes (Elt F) VM.junk (kernelRun1_A c i arg3 harg3 arg4 harg4 arg5 harg5 arg6 harg6 arg7 harg7 arg8 harg8 arg9 harg9 arg10 harg10 hc0 hc1 x0 x1 x2).2.1)

def sL_A : Vec F S2048x4 .f32 :=
  VL.read (Elt F) (VL.writes (Elt F) VL.junk (kernelRun1_A c i arg3 harg3 arg4 harg4 arg5 harg5 arg6 harg6 arg7 harg7 arg8 harg8 arg9 harg9 arg10 harg10 hc0 hc1 x0 x1 x2).2.2.1)

def sA_A : Vec F S2048x256 .f32 :=
  VA.read (Elt F) (VA.writes (Elt F) VA.junk (kernelRun1_A c i arg3 harg3 arg4 harg4 arg5 harg5 arg6 harg6 arg7 harg7 arg8 harg8 arg9 harg9 arg10 harg10 hc0 hc1 x0 x1 x2).2.2.2.1)

/-- Each buffer's stored pieces tile it. -/
theorem covers_A :
    (∀ y, ∃ pc ∈ (kernelRun1_A c i arg3 harg3 arg4 harg4 arg5 harg5 arg6 harg6 arg7 harg7 arg8 harg8 arg9 harg9 arg10 harg10 hc0 hc1 x0 x1 x2).1, y ∈ pc.1.set)
    ∧ (∀ y, ∃ pc ∈ (kernelRun1_A c i arg3 harg3 arg4 harg4 arg5 harg5 arg6 harg6 arg7 harg7 arg8 harg8 arg9 harg9 arg10 harg10 hc0 hc1 x0 x1 x2).2.1, y ∈ pc.1.set)
    ∧ (∀ y, ∃ pc ∈ (kernelRun1_A c i arg3 harg3 arg4 harg4 arg5 harg5 arg6 harg6 arg7 harg7 arg8 harg8 arg9 harg9 arg10 harg10 hc0 hc1 x0 x1 x2).2.2.1, y ∈ pc.1.set)
    ∧ ∀ y, ∃ pc ∈ (kernelRun1_A c i arg3 harg3 arg4 harg4 arg5 harg5 arg6 harg6 arg7 harg7 arg8 harg8 arg9 harg9 arg10 harg10 hc0 hc1 x0 x1 x2).2.2.2.1, y ∈ pc.1.set :=
  ⟨View.cover_of_tiledL _ S1x2048x256.size (by sl_kernel_rfl),
   View.cover_of_tiledL _ S2048x1.size (by sl_kernel_rfl),
   View.cover_of_tiledL _ S2048x1.size (by sl_kernel_rfl),
   View.cover_of_tiledL _ S2048x64.size (by sl_kernel_rfl)⟩

end A

section B
variable (hc0 : ¬cond1_0 i) (hc1 : ¬cond1_1 i) (x0 : Vec F S1x2048x256 .bf16) (x1 x2 : Vec F S1x512x256 .bf16) (xs0 : Vec F S1x2048x256 .bf16) (xs1 xs2 : Vec F S2048x4 .f32) (xs3 : Vec F S2048x256 .f32)

def sM_B : Vec F S2048x4 .f32 :=
  VM.read (Elt F) (VM.writes (Elt F) VM.junk (kernelRun1_B c i arg3 harg3 arg4 harg4 arg5 harg5 arg6 harg6 arg7 harg7 arg8 harg8 arg9 harg9 arg10 harg10 hc0 hc1 x0 x1 x2 xs0 xs1 xs2 xs3).1)

def sL_B : Vec F S2048x4 .f32 :=
  VL.read (Elt F) (VL.writes (Elt F) VL.junk (kernelRun1_B c i arg3 harg3 arg4 harg4 arg5 harg5 arg6 harg6 arg7 harg7 arg8 harg8 arg9 harg9 arg10 harg10 hc0 hc1 x0 x1 x2 xs0 xs1 xs2 xs3).2.1)

def sA_B : Vec F S2048x256 .f32 :=
  VA.read (Elt F) (VA.writes (Elt F) VA.junk (kernelRun1_B c i arg3 harg3 arg4 harg4 arg5 harg5 arg6 harg6 arg7 harg7 arg8 harg8 arg9 harg9 arg10 harg10 hc0 hc1 x0 x1 x2 xs0 xs1 xs2 xs3).2.2.1)

/-- Each buffer's stored pieces tile it. -/
theorem covers_B :
    (∀ y, ∃ pc ∈ (kernelRun1_B c i arg3 harg3 arg4 harg4 arg5 harg5 arg6 harg6 arg7 harg7 arg8 harg8 arg9 harg9 arg10 harg10 hc0 hc1 x0 x1 x2 xs0 xs1 xs2 xs3).1, y ∈ pc.1.set)
    ∧ (∀ y, ∃ pc ∈ (kernelRun1_B c i arg3 harg3 arg4 harg4 arg5 harg5 arg6 harg6 arg7 harg7 arg8 harg8 arg9 harg9 arg10 harg10 hc0 hc1 x0 x1 x2 xs0 xs1 xs2 xs3).2.1, y ∈ pc.1.set)
    ∧ ∀ y, ∃ pc ∈ (kernelRun1_B c i arg3 harg3 arg4 harg4 arg5 harg5 arg6 harg6 arg7 harg7 arg8 harg8 arg9 harg9 arg10 harg10 hc0 hc1 x0 x1 x2 xs0 xs1 xs2 xs3).2.2.1, y ∈ pc.1.set :=
  ⟨View.cover_of_tiledL _ S2048x1.size (by sl_kernel_rfl),
   View.cover_of_tiledL _ S2048x1.size (by sl_kernel_rfl),
   View.cover_of_tiledL _ S2048x64.size (by sl_kernel_rfl)⟩

end B

section C
variable (hc0 : ¬cond1_0 i) (hc1 : cond1_1 i) (x0 : Vec F S1x2048x256 .bf16) (x1 x2 : Vec F S1x512x256 .bf16) (xs0 : Vec F S1x2048x256 .bf16) (xs1 xs2 : Vec F S2048x4 .f32) (xs3 : Vec F S2048x256 .f32)

def sO_C : Vec F S1x2048x256 .bf16 :=
  VO1.read (Elt F) (VO1.writes (Elt F) VO1.junk (kernelRun1_C c i arg3 harg3 arg4 harg4 arg5 harg5 arg6 harg6 arg7 harg7 arg8 harg8 arg9 harg9 arg10 harg10 hc0 hc1 x0 x1 x2 xs0 xs1 xs2 xs3).1)

def sM_C : Vec F S2048x4 .f32 :=
  VM.read (Elt F) (VM.writes (Elt F) VM.junk (kernelRun1_C c i arg3 harg3 arg4 harg4 arg5 harg5 arg6 harg6 arg7 harg7 arg8 harg8 arg9 harg9 arg10 harg10 hc0 hc1 x0 x1 x2 xs0 xs1 xs2 xs3).2.1)

def sL_C : Vec F S2048x4 .f32 :=
  VL.read (Elt F) (VL.writes (Elt F) VL.junk (kernelRun1_C c i arg3 harg3 arg4 harg4 arg5 harg5 arg6 harg6 arg7 harg7 arg8 harg8 arg9 harg9 arg10 harg10 hc0 hc1 x0 x1 x2 xs0 xs1 xs2 xs3).2.2.1)

def sA_C : Vec F S2048x256 .f32 :=
  VA.read (Elt F) (VA.writes (Elt F) VA.junk (kernelRun1_C c i arg3 harg3 arg4 harg4 arg5 harg5 arg6 harg6 arg7 harg7 arg8 harg8 arg9 harg9 arg10 harg10 hc0 hc1 x0 x1 x2 xs0 xs1 xs2 xs3).2.2.2.1)

/-- Each buffer's stored pieces tile it. -/
theorem covers_C :
    (∀ y, ∃ pc ∈ (kernelRun1_C c i arg3 harg3 arg4 harg4 arg5 harg5 arg6 harg6 arg7 harg7 arg8 harg8 arg9 harg9 arg10 harg10 hc0 hc1 x0 x1 x2 xs0 xs1 xs2 xs3).1, y ∈ pc.1.set)
    ∧ (∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.1, y ∈ pc.1.set)
    ∧ (∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.2.1, y ∈ pc.1.set)
    ∧ ∀ y, ∃ pc ∈ (kernelRun1_C c i arg3 harg3 arg4 harg4 arg5 harg5 arg6 harg6 arg7 harg7 arg8 harg8 arg9 harg9 arg10 harg10 hc0 hc1 x0 x1 x2 xs0 xs1 xs2 xs3).2.2.2.1, y ∈ pc.1.set :=
  ⟨View.cover_of_tiledL _ S1x2048x256.size (by sl_kernel_rfl),
   View.cover_of_tiledL _ S2048x1.size (by sl_kernel_rfl),
   View.cover_of_tiledL _ S2048x1.size (by sl_kernel_rfl),
   View.cover_of_tiledL _ S2048x64.size (by sl_kernel_rfl)⟩

end C

end Pieces

structure St1 (F : FTy → Type) [FloatOps F] where
  out : Vec F S1x2048x256 .bf16
  q : Vec F S1x2048x256 .bf16
  m : Vec F S2048x4 .f32
  l : Vec F S2048x4 .f32
  a : Vec F S2048x256 .f32

def noOut : Vec F S1x2048x256 .bf16 := VO1.read (Elt F) (VO1.writes (Elt F) VO1.junk [])

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stA (c : Dev nD) (t : Fin cfg1.N) (hc0 : cond1_0 (grid1.coords t)) (hc1 : ¬cond1_1 (grid1.coords t)) : St1 F :=
  ⟨noOut,
   sQ_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sM_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sL_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t),
   sA_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)⟩

def stB (c : Dev nD) (t : Fin cfg1.N) (hc0 : ¬cond1_0 (grid1.coords t)) (hc1 : ¬cond1_1 (grid1.coords t)) (p : St1 F) : St1 F :=
  ⟨noOut, p.q,
   sM_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sL_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sA_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a⟩

def stC (c : Dev nD) (t : Fin cfg1.N) (hc0 : ¬cond1_0 (grid1.coords t)) (hc1 : cond1_1 (grid1.coords t)) (p : St1 F) : St1 F :=
  ⟨sO_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a, p.q,
   sM_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sL_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a,
   sA_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) p.q p.m p.l p.a⟩

def outsAt1 (c : Dev nD) : (n : ℕ) → n < cfg1.N → St1 F
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else stA V c ⟨n + 1, hn⟩ ((hcond1_0 ⟨n + 1, hn⟩).mpr h0) (fun h => h1 ((hcond1_1 ⟨n + 1, hn⟩).mp h))
    else
      if h1 : (n + 1) % 4 = 3 then stC V c ⟨n + 1, hn⟩ (fun h => h0 ((hcond1_0 ⟨n + 1, hn⟩).mp h)) ((hcond1_1 ⟨n + 1, hn⟩).mpr h1) (outsAt1 c n (Nat.lt_of_succ_lt hn))
      else stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 4 = 0) (h1 : ¬t.val % 4 = 3) :
    outsAt1 V c t.val t.isLt = stA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scQ fullShare (outsAt1 V c n hn).q ∗ owns (c : Thread nD τ) scM fullShare (outsAt1 V c n hn).m ∗ owns (c : Thread nD τ) scL fullShare (outsAt1 V c n hn).l ∗ owns (c : Thread nD τ) scA fullShare (outsAt1 V c n hn).a) ∗ Rest1 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scQ fullShare (outsAt1 V c n hn).q ∗ owns (c : Thread nD τ) scM fullShare (outsAt1 V c n hn).m ∗ owns (c : Thread nD τ) scL fullShare (outsAt1 V c n hn).l ∗ owns (c : Thread nD τ) scA fullShare (outsAt1 V c n hn).a) ∗ Rest1 c ∗ (∃ r, prngReg c r)) := rfl

theorem PhiS_pos (c : Dev nD) (n : ℕ) (h : n ≤ cfg1.N) (hz : n ≠ 0) :
    PhiS V c n h = iprop(iprop(owns (c : Thread nD τ) scQ fullShare (outsAt1 V c (n - 1) (by omega)).q ∗ owns (c : Thread nD τ) scM fullShare (outsAt1 V c (n - 1) (by omega)).m ∗ owns (c : Thread nD τ) scL fullShare (outsAt1 V c (n - 1) (by omega)).l ∗ owns (c : Thread nD τ) scA fullShare (outsAt1 V c (n - 1) (by omega)).a) ∗ Rest1 c ∗ (∃ r, prngReg c r)) := by
  cases n with
  | zero => exact absurd rfl hz
  | succ n => rfl

def q1 : Fin cfg1.W → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).out
  Φ t := PhiS V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).out := by dsimp only [dat1]

end Cert.KernelIdeal.Hand

end
-- ==== Proof.KI.R1Frame.lean ====
/- The attention region's body obligation: at every grid point the body runs from the invariant to the invariant at the next point. -/
import proofs.«401092_j26680336843340_3_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- At any point the invariant gives the region's entry resources back: what the scratch buffers hold is forgotten. -/
theorem PhiS_out (c : Dev nD) (n : ℕ) (h : n ≤ cfg1.N) : PhiS V c n h ⊢ (Pipeline.ΦA spec1 c : sProp 𝕄) := by
  by_cases hz : n = 0
  · rw [PhiS_zero V c n h hz]
  rw [PhiS_pos V c _ _ hz]
  iintro ⟨⟨HQ, HM, HL, HA⟩, HR, Hg⟩
  iapply (PhiA1_join c)
  isplitl [HQ HM HL HA]
  · isplitl [HQ]; · iexists _; iexact HQ
    isplitl [HM]; · iexists _; iexact HM
    isplitl [HL]; · iexists _; iexact HL
    iexists _; iexact HA
  isplitl [HR]; · iexact HR
  iexact Hg

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ, PhiS_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1), outsAt1_A V c t h0 h1]
    dsimp only [stA]
    unfold sQ_A sM_A sL_A sA_A
    iintro ⟨HΦ, Ho, ⟨%d0, H0⟩, ⟨%d1, H1⟩, ⟨%d2, H2⟩, ⟨%d3, H3⟩⟩
    ihave HΦ := (PhiS_out V c _ _) $$ HΦ
    ihave HΦ := (PhiA1_split c) $$ HΦ
    icases HΦ with ⟨⟨HQ, HM, HL, HA⟩, HR, Hg⟩
    obtain ⟨cQ, cM, cL, cA⟩ := covers_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)
    iapply ((kernelRun1_A c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HQ]; · iexact HQ
    isplitl [HM]; · iexact HM
    isplitl [HL]; · iexact HL
    isplitl [HA]; · iexact HA
    iintro ⟨H0, H1, H2, H3, ⟨%eQ, HQ⟩, ⟨%eM, HM⟩, ⟨%eL, HL⟩, ⟨%eA, HA⟩⟩
    isplitl [HQ HM HL HA HR Hg]
    · isplitl [HQ HM HL HA]
      · isplitl [HQ]
        · unfold owns; iexists _; isplitr
          swap; · iexact HQ
          ipureintro; exact View.read_writes_of_cover _ _ _ _ _ cQ
        isplitl [HM]
        · unfold owns; iexists _; isplitr
          swap; · iexact HM
          ipureintro; exact View.read_writes_of_cover _ _ _ _ _ cM
        isplitl [HL]
        · unfold owns; iexists _; isplitr
          swap; · iexact HL
          ipureintro; exact View.read_writes_of_cover _ _ _ _ _ cL
        unfold owns; iexists _; isplitr
        swap; · iexact HA
        ipureintro; exact View.read_writes_of_cover _ _ _ _ _ cA
      isplitl [HR]; · iexact HR
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hz : t.val ≠ 0 := fun hz => h0 (by rw [hz])
    rw [PhiS_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, outsAt1_C V c t h0 h1]
      dsimp only [stC]
      unfold sO_C sM_C sL_C sA_C
      iintro ⟨⟨⟨HQ, HM, HL, HA⟩, HR, Hg⟩, Ho, ⟨%d0, H0⟩, ⟨%d1, H1⟩, ⟨%d2, H2⟩, ⟨%d3, H3⟩⟩
      obtain ⟨cO, cM, cL, cA⟩ := covers_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a
      iapply ((kernelRun1_C c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a).2.2.2.2 Set.univ _)
      isplitl [H0]; · iexact H0
      isplitl [H1]; · iexact H1
      isplitl [H2]; · iexact H2
      isplitl [H3]; · iexists _; iexact H3
      isplitl [HQ]; · iexact HQ
      isplitl [HM]; · iexact HM
      isplitl [HL]; · iexact HL
      isplitl [HA]; · iexact HA
      iintro ⟨H0, H1, H2, ⟨%e3, H3⟩, HQ, ⟨%eM, HM⟩, ⟨%eL, HL⟩, ⟨%eA, HA⟩⟩
      isplitl [HQ HM HL HA HR Hg]
      · isplitl [HQ HM HL HA]
        · isplitl [HQ]; · iexact HQ
          isplitl [HM]
          · unfold owns; iexists _; isplitr
            swap; · iexact HM
            ipureintro; exact View.read_writes_of_cover _ _ _ _ _ cM
          isplitl [HL]
          · unfold owns; iexists _; isplitr
            swap; · iexact HL
            ipureintro; exact View.read_writes_of_cover _ _ _ _ _ cL
          unfold owns; iexists _; isplitr
          swap; · iexact HA
          ipureintro; exact View.read_writes_of_cover _ _ _ _ _ cA
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ cO
    · have hc1 : ¬cond1_1 (grid1.coords t) := fun h => h1 ((hcond1_1 t).mp h)
      rw [Dat.leavesExact_idle (dat1 V c) 3 t (idleAt1_3 t hc1) (noFlush1_3 t hc1), outsAt1_B V c t h0 h1]
      dsimp only [stB]
      unfold sM_B sL_B sA_B
      iintro ⟨⟨⟨HQ, HM, HL, HA⟩, HR, Hg⟩, Ho, ⟨%d0, H0⟩, ⟨%d1, H1⟩, ⟨%d2, H2⟩, ⟨%d3, H3⟩⟩
      obtain ⟨cM, cL, cA⟩ := covers_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a
      iapply ((kernelRun1_B c (grid1.coords t) (ms1_0 t) (hs1_0 t) (ms1_1 t) (hs1_1 t) (ms1_2 t) (hs1_2 t) (ms1_3 t) (hs1_3 t) scQ (Memref.isWhole_whole _) scM (Memref.isWhole_whole _) scL (Memref.isWhole_whole _) scA (Memref.isWhole_whole _) hc0 hc1 (iblk1 V c 0 t) (iblk1 V c 1 t) (iblk1 V c 2 t) (outsAt1 V c (t.val - 1) (Nat.lt_of_le_of_lt (Nat.sub_le _ _) t.isLt)).q (outsAt1 V c (t.val - 1) (Nat.lt_of_le_of_lt (Nat.sub_le _ _) t.isLt)).m (outsAt1 V c (t.val - 1) (Nat.lt_of_le_of_lt (Nat.sub_le _ _) t.isLt)).l (outsAt1 V c (t.val - 1) (Nat.lt_of_le_of_lt (Nat.sub_le _ _) t.isLt)).a).2.2.2 _ Set.univ _)
      isplitl [H0]; · iexact H0
      isplitl [H1]; · iexact H1
      isplitl [H2]; · iexact H2
      isplitl [H3]; · iexact H3
      isplitl [HQ]; · iexact HQ
      isplitl [HM]; · iexact HM
      isplitl [HL]; · iexact HL
      isplitl [HA]; · iexact HA
      iintro ⟨H0, H1, H2, H3, HQ, ⟨%eM, HM⟩, ⟨%eL, HL⟩, ⟨%eA, HA⟩⟩
      isplitl [HQ HM HL HA HR Hg]
      · isplitl [HQ HM HL HA]
        · isplitl [HQ]; · iexact HQ
          isplitl [HM]
          · unfold owns; iexists _; isplitr
            swap; · iexact HM
            ipureintro; exact View.read_writes_of_cover _ _ _ _ _ cM
          isplitl [HL]
          · unfold owns; iexists _; isplitr
            swap; · iexact HL
            ipureintro; exact View.read_writes_of_cover _ _ _ _ _ cL
          unfold owns; iexists _; isplitr
          swap; · iexact HA
          ipureintro; exact View.read_writes_of_cover _ _ _ _ _ cA
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact PhiS_out V c _ _

end Cert.KernelIdeal.Hand

end
-- ==== Proof.KI.Run.lean ====
/- The whole program's run at any float instance: three kernel regions among four host reshapes. -/
import proofs.«401092_j26680336843340_3_alg».proof.Proof.KI.Reg0
import proofs.«401092_j26680336843340_3_alg».proof.Proof.KI.Reg2
import proofs.«401092_j26680336843340_3_alg».proof.Proof.KI.R1Frame
import proofs.«401092_j26680336843340_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def X1 (c : Dev nD) : Valuation τ sig (Elt F) := StableHlo.after hostOps0 (fun b => m (c, b))

def X2 (c : Dev nD) : Valuation τ sig (Elt F) :=
  Function.update (X1 m c) main_v1 ((dat0 (fun c b => X1 m c b) c).arrAt 2 cfg0.N)

def X3 (c : Dev nD) : Valuation τ sig (Elt F) := StableHlo.after hostOps1 (X2 m c)

def X4 (c : Dev nD) : Valuation τ sig (Elt F) :=
  Function.update (X3 m c) main_v3 ((dat1 (fun c b => X3 m c b) c).arrAt 3 cfg1.N)

def X5 (c : Dev nD) : Valuation τ sig (Elt F) := StableHlo.after hostOps2 (X4 m c)

def X6 (c : Dev nD) : Valuation τ sig (Elt F) :=
  Function.update (X5 m c) main_v5 ((dat2 (fun c b => X5 m c b) c).arrAt 3 cfg2.N)

def X7 (c : Dev nD) : Valuation τ sig (Elt F) := StableHlo.after hostOps3 (X6 m c)

theorem X1_of (c : Dev nD) (r : Ref sig .tc) (h : r ∉ hostOps0_W) : X1 m c r = m ((c : Thread nD τ).loc r) :=
  StableHlo.after_of_writes_sub hostOps0 _ hostOps0_writes h
theorem X2_of (c : Dev nD) (r : Ref sig .tc) (h : r ∉ ([main_v1] : List (Ref sig .tc))) : X2 m c r = X1 m c r := by
  unfold X2; exact Function.update_of_ne (StableHlo.devRef_ne_of_ne (List.ne_of_not_mem_cons h)) _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ∉ ([main_v3] : List (Ref sig .tc))) : X4 m c r = X3 m c r := by
  unfold X4; exact Function.update_of_ne (StableHlo.devRef_ne_of_ne (List.ne_of_not_mem_cons h)) _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ∉ ([main_v5] : List (Ref sig .tc))) : X6 m c r = X5 m c r := by
  unfold X6; exact Function.update_of_ne (StableHlo.devRef_ne_of_ne (List.ne_of_not_mem_cons h)) _ _
theorem X7_of (c : Dev nD) (r : Ref sig .tc) (h : r ∉ hostOps3_W) : X7 m c r = X6 m c r :=
  StableHlo.after_of_writes_sub hostOps3 _ hostOps3_writes h

theorem X2_main_v1 (c : Dev nD) : X2 m c main_v1 = (dat0 (fun c b => X1 m c b) c).arrAt 2 cfg0.N := by
  unfold X2; exact Function.update_self ..
theorem X4_main_v3 (c : Dev nD) : X4 m c main_v3 = (dat1 (fun c b => X3 m c b) c).arrAt 3 cfg1.N := by
  unfold X4; exact Function.update_self ..
theorem X6_main_v5 (c : Dev nD) : X6 m c main_v5 = (dat2 (fun c b => X5 m c b) c).arrAt 3 cfg2.N := by
  unfold X6; exact Function.update_self ..

theorem X1_main_arg1 (c : Dev nD) : X1 m c main_arg1 = m ((c : Thread nD τ).loc main_arg1) := X1_of m c main_arg1 (by decide)
theorem X5_main_arg2 (c : Dev nD) : X5 m c main_arg2 = m ((c : Thread nD τ).loc main_arg2) :=
  (X5_of m c main_arg2 (by decide)).trans <| (X4_of m c main_arg2 (by decide)).trans <| (X3_of m c main_arg2 (by decide)).trans <|
    (X2_of m c main_arg2 (by decide)).trans <| X1_of m c main_arg2 (by decide)
theorem X5_main_arg3 (c : Dev nD) : X5 m c main_arg3 = m ((c : Thread nD τ).loc main_arg3) :=
  (X5_of m c main_arg3 (by decide)).trans <| (X4_of m c main_arg3 (by decide)).trans <| (X3_of m c main_arg3 (by decide)).trans <|
    (X2_of m c main_arg3 (by decide)).trans <| X1_of m c main_arg3 (by decide)

theorem X7_of_unwritten (c : Dev nD) (r : Ref sig .tc) (h0 : r ∉ hostOps0_W) (h1 : r ∉ ([main_v1] : List (Ref sig .tc))) (h2 : r ∉ hostOps1_W)
    (h3 : r ∉ ([main_v3] : List (Ref sig .tc))) (h4 : r ∉ hostOps2_W) (h5 : r ∉ ([main_v5] : List (Ref sig .tc))) (h6 : r ∉ hostOps3_W) :
    X7 m c r = m ((c : Thread nD τ).loc r) :=
  (X7_of m c r h6).trans <| (X6_of m c r h5).trans <| (X5_of m c r h4).trans <| (X4_of m c r h3).trans <| (X3_of m c r h2).trans <|
    (X2_of m c r h1).trans <| X1_of m c r h0
theorem X7_main_arg0 (c : Dev nD) : X7 m c main_arg0 = m ((c : Thread nD τ).loc main_arg0) :=
  X7_of_unwritten m c main_arg0 (by decide) (by decide) (by decide) (by decide) (by decide) (by decide) (by decide)
theorem X7_main_arg1 (c : Dev nD) : X7 m c main_arg1 = m ((c : Thread nD τ).loc main_arg1) :=
  X7_of_unwritten m c main_arg1 (by decide) (by decide) (by decide) (by decide) (by decide) (by decide) (by decide)
theorem X7_main_arg2 (c : Dev nD) : X7 m c main_arg2 = m ((c : Thread nD τ).loc main_arg2) :=
  X7_of_unwritten m c main_arg2 (by decide) (by decide) (by decide) (by decide) (by decide) (by decide) (by decide)
theorem X7_main_arg3 (c : Dev nD) : X7 m c main_arg3 = m ((c : Thread nD τ).loc main_arg3) :=
  X7_of_unwritten m c main_arg3 (by decide) (by decide) (by decide) (by decide) (by decide) (by decide) (by decide)

theorem X1_main_v0 (c : Dev nD) :
    (X1 m c main_v0 : Vec F S8192x768 .f32)
      = shapeCast S8192x768 (m ((c : Thread nD τ).loc main_arg0) : Vec F S4x2048x768 .f32) shapeCasts_S4x2048x768_S8192x768 := by
  unfold X1; dsimp only [hostOps0]; after_results; rfl
theorem X3_main_v2 (c : Dev nD) :
    (X3 m c main_v2 : Vec F S4x2048x2304 .bf16)
      = shapeCast S4x2048x2304 (X2 m c main_v1 : Vec F S8192x2304 .bf16) shapeCasts_S8192x2304_S4x2048x2304 := by
  unfold X3; dsimp only [hostOps1]; after_results; rfl
theorem X5_main_v4 (c : Dev nD) :
    (X5 m c main_v4 : Vec F S8192x768 .bf16)
      = shapeCast S8192x768 (X4 m c main_v3 : Vec F S4x2048x768 .bf16) shapeCasts_S4x2048x768_S8192x768 := by
  unfold X5; dsimp only [hostOps2]; after_results; rfl

theorem result_eq (c : Dev nD) :
    (X7 m c main_v6 : Vec F S4x2048x768 .f32)
      = shapeCast S4x2048x768 (X6 m c main_v5 : Vec F S8192x768 .f32) shapeCasts_S8192x768_S4x2048x768 := by
  unfold X7; dsimp only [hostOps3]; after_results; rfl
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

theorem arrays1_eq (c : Dev nD) (dat : Dat τ (Elt F) Unit ℕ (UR sig nD τ) ℕ cfg1 c)
    (V : (b : Ref sig .tc) → Buf (Elt F) ((c : Thread nD τ).loc b)) :
    (dat.arrays (fun w => V (Pipeline.arrRef spec1 w)) : sProp 𝕄)
      = iprop((((c : Thread nD τ).loc main_v2) ↦{dat.share 0} V main_v2) ∗ (((c : Thread nD τ).loc main_v2) ↦{dat.share 1} V main_v2)
          ∗ (((c : Thread nD τ).loc main_v2) ↦{dat.share 2} V main_v2) ∗ (((c : Thread nD τ).loc main_v3) ↦{dat.share 3} V main_v3)) := by
  unfold Pipeline.Dat.arrays
  rw [bigSep_W1, (arr_whole1 0).set_eq_univ, (arr_whole1 3).set_eq_univ]

theorem fullShare_thirds (ℓ : Loc nD τ sig) (f : Buf (Elt F) ℓ) :
    ((ℓ ↦{fullShare} f : sProp 𝕄))
      ⊣⊢ iprop((ℓ ↦{fullShare.left} f) ∗ (ℓ ↦{fullShare.right.left} f) ∗ (ℓ ↦{fullShare.right.right} f)) := by
  have cut1 : ((ℓ ↦{fullShare} f : sProp 𝕄)) ⊣⊢ iprop((ℓ ↦{fullShare.left} f) ∗ (ℓ ↦{fullShare.right} f)) :=
    pointsTo_share (PosShare.mem_left_op_right fullShare)
  have cut2 : ((ℓ ↦{fullShare.right} f : sProp 𝕄)) ⊣⊢ iprop((ℓ ↦{fullShare.right.left} f) ∗ (ℓ ↦{fullShare.right.right} f)) :=
    pointsTo_share (PosShare.mem_left_op_right fullShare.right)
  constructor
  · iintro H
    ihave H := cut1.mp $$ H
    icases H with ⟨Ha, Hbc⟩
    ihave H := cut2.mp $$ Hbc
    icases H with ⟨Hb, Hc⟩
    isplitl [Ha]; · iexact Ha
    isplitl [Hb]; · iexact Hb
    iexact Hc
  · iintro ⟨Ha, Hb, Hc⟩
    iapply cut1.mpr
    isplitl [Ha]; · iexact Ha
    iapply cut2.mpr
    isplitl [Hb]; · iexact Hb
    iexact Hc

section Shares

variable (c : Dev nD) (dat : Dat τ (Elt F) Unit ℕ (UR sig nD τ) ℕ cfg1 c)
  (hq0 : dat.share 0 = fullShare.left) (hq1 : dat.share 1 = fullShare.right.left) (hq2 : dat.share 2 = fullShare.right.right)
  (hq3 : dat.share 3 = fullShare)

include hq0 hq1 hq2 hq3

theorem arrays1_of_arrBufs (V : (b : Ref sig .tc) → Buf (Elt F) ((c : Thread nD τ).loc b)) :
    (Pipeline.arrBufs (Ix := Unit) (Name := ℕ) (U := UR sig nD τ) (Lvl := ℕ) spec1 c V : sProp 𝕄)
      ⊢ dat.arrays (fun w => V (Pipeline.arrRef spec1 w)) := by
  rw [arrBufs1_eq, arrays1_eq, hq0, hq1, hq2, hq3]
  iintro ⟨H2, H3⟩
  ihave H := (fullShare_thirds ((c : Thread nD τ).loc main_v2) (V main_v2)).mp $$ H2
  icases H with ⟨Ha, Hb, Hc⟩
  isplitl [Ha]; · iexact Ha
  isplitl [Hb]; · iexact Hb
  isplitl [Hc]; · iexact Hc
  iexact H3

theorem arrBufs1_of_arrays (V : (b : Ref sig .tc) → Buf (Elt F) ((c : Thread nD τ).loc b)) :
    (dat.arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq, hq0, hq1, hq2, hq3]
  iintro ⟨Ha, Hb, Hc, H3⟩
  isplitr [H3]
  · iapply (fullShare_thirds ((c : Thread nD τ).loc main_v2) (V main_v2)).mpr
    isplitl [Ha]; · iexact Ha
    isplitl [Hb]; · iexact Hb
    iexact Hc
  iexact H3

theorem arrays1_of_unscopedBufs (V : (b : Ref sig .tc) → Buf (Elt F) ((c : Thread nD τ).loc b)) :
    (unscopedBufs c V : sProp 𝕄)
      ⊢ iprop(dat.arrays (fun w => V (Pipeline.arrRef spec1 w)) ∗ Pipeline.unscopedRest spec1 c V) := by
  rw [Pipeline.unscopedBufs_split₀ cfgs 1 winFacts₀1.arr_unscoped c V]
  exact sep_mono (arrays1_of_arrBufs c dat hq0 hq1 hq2 hq3 V) .rfl

theorem unscopedBufs_of_arrays1 (V V' : (b : Ref sig .tc) → Buf (Elt F) ((c : Thread nD τ).loc b))
    (hrest : ∀ b, b ∉ Finset.univ.image (Pipeline.arrRef spec1) → V' b = V b) :
    iprop(dat.arrays (fun w => V' (Pipeline.arrRef spec1 w)) ∗ Pipeline.unscopedRest spec1 c V)
      ⊢ (unscopedBufs c V' : sProp 𝕄) := by
  rw [Pipeline.unscopedBufs_split₀ cfgs 1 winFacts₀1.arr_unscoped c V']
  refine sep_mono (arrBufs1_of_arrays c dat hq0 hq1 hq2 hq3 V') (Entails.of_eq ?_)
  unfold Pipeline.unscopedRest
  exact bigSep_congr fun b hb => by rw [hrest b (Finset.mem_sdiff.mp hb).2]

end Shares

def runDats : (p : Fin 3) → (c : Dev nD) → Dat τ (Elt F) Unit ℕ (UR sig nD τ) ℕ (Pipeline.pin (pcfgs (F := F)) adm p) c
  | ⟨0, _⟩ => fun c => dat0 (fun c b => X1 m c b) c
  | ⟨1, _⟩ => fun c => dat1 (fun c b => X3 m c b) c
  | ⟨2, _⟩ => fun c => dat2 (fun c b => X5 m c b) c

abbrev runVar : Variants := Variants.none

abbrev runL : GSem nD τ sig → Finset Unit := fun _ => ∅
abbrev runLv : GSem nD τ sig → Unit → ℕ := fun _ _ => 0

abbrev runSide (c : Dev nD) : sProp 𝕄 :=
  iprop((∃ r, prngReg c r) ∗ ∃ W, owes (c : Thread nD τ) (0 : CellTallies nD τ sig Unit) W)

abbrev runAt (W : Dev nD → Valuation τ sig (Elt F)) (c : Dev nD) : sProp 𝕄 :=
  iprop(StableHlo.held (c : Thread nD τ) (Pipeline.ucRefs τ sig) (W c) ∗ runSide c)

abbrev runHost (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ runVar runL runLv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W runSide

theorem runF0 (c : Dev nD) (w : Fin cfg0.W) :
    (dat0 (fun c b => X1 m c b) c).arrAt w cfg0.N = (fun b : Ref sig .tc => X2 m c b) (Pipeline.arrRef spec0 w) :=
  match w with
  | ⟨0, _⟩ => (((dat0 (fun c b => X1 m c b) c).arrAt_in 0 rfl _).trans (A_eq0 (fun c b => X1 m c b) c 0)).trans (X2_of m c _ (by decide)).symm
  | ⟨1, _⟩ => (((dat0 (fun c b => X1 m c b) c).arrAt_in 1 rfl _).trans (A_eq0 (fun c b => X1 m c b) c 1)).trans (X2_of m c _ (by decide)).symm
  | ⟨2, _⟩ => (X2_main_v1 m c).symm
theorem runRest0 (c : Dev nD) : ∀ b : Ref sig .tc, b ∉ Finset.univ.image (Pipeline.arrRef spec0) → X2 m c b = X1 m c b :=
  fun b hb => X2_of m c b fun h => hb (by
    rw [List.mem_singleton] at h; subst h
    exact Finset.mem_image.mpr ⟨2, Finset.mem_univ _, rfl⟩)

theorem runF1 (c : Dev nD) (w : Fin cfg1.W) :
    (dat1 (fun c b => X3 m c b) c).arrAt w cfg1.N = (fun b : Ref sig .tc => X4 m c b) (Pipeline.arrRef spec1 w) :=
  match w with
  | ⟨0, _⟩ => (((dat1 (fun c b => X3 m c b) c).arrAt_in 0 rfl _).trans (A_eq1 (fun c b => X3 m c b) c 0)).trans (X4_of m c _ (by decide)).symm
  | ⟨1, _⟩ => (((dat1 (fun c b => X3 m c b) c).arrAt_in 1 rfl _).trans (A_eq1 (fun c b => X3 m c b) c 1)).trans (X4_of m c _ (by decide)).symm
  | ⟨2, _⟩ => (((dat1 (fun c b => X3 m c b) c).arrAt_in 2 rfl _).trans (A_eq1 (fun c b => X3 m c b) c 2)).trans (X4_of m c _ (by decide)).symm
  | ⟨3, _⟩ => (X4_main_v3 m c).symm
theorem runRest1 (c : Dev nD) : ∀ b : Ref sig .tc, b ∉ Finset.univ.image (Pipeline.arrRef spec1) → X4 m c b = X3 m c b :=
  fun b hb => X4_of m c b fun h => hb (by
    rw [List.mem_singleton] at h; subst h
    exact Finset.mem_image.mpr ⟨3, Finset.mem_univ _, rfl⟩)

theorem runF2 (c : Dev nD) (w : Fin cfg2.W) :
    (dat2 (fun c b => X5 m c b) c).arrAt w cfg2.N = (fun b : Ref sig .tc => X6 m c b) (Pipeline.arrRef spec2 w) :=
  match w with
  | ⟨0, _⟩ => (((dat2 (fun c b => X5 m c b) c).arrAt_in 0 rfl _).trans (A_eq2 (fun c b => X5 m c b) c 0)).trans (X6_of m c _ (by decide)).symm
  | ⟨1, _⟩ => (((dat2 (fun c b => X5 m c b) c).arrAt_in 1 rfl _).trans (A_eq2 (fun c b => X5 m c b) c 1)).trans (X6_of m c _ (by decide)).symm
  | ⟨2, _⟩ => (((dat2 (fun c b => X5 m c b) c).arrAt_in 2 rfl _).trans (A_eq2 (fun c b => X5 m c b) c 2)).trans (X6_of m c _ (by decide)).symm
  | ⟨3, _⟩ => (X6_main_v5 m c).symm
theorem runRest2 (c : Dev nD) : ∀ b : Ref sig .tc, b ∉ Finset.univ.image (Pipeline.arrRef spec2) → X6 m c b = X5 m c b :=
  fun b hb => X6_of m c b fun h => hb (by
    rw [List.mem_singleton] at h; subst h
    exact Finset.mem_image.mpr ⟨3, Finset.mem_univ _, rfl⟩)

theorem runOwesIn {cfg : Cfg sig Λ₀} {c : Dev nD} (dat : Dat τ (Elt F) Unit ℕ (UR sig nD τ) ℕ cfg c) (t : Fin (cfg.N + 1))
    (howed : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  iintro ⟨%W, HO⟩
  iexists W
  isplitr
  · ipureintro; exact fun x _ => Or.inl (by rw [hrec]; trivial)
  rw [howed]; iexact HO

theorem runOwesOut {cfg : Cfg sig Λ₀} {c : Dev nD} (dat : Dat τ (Elt F) Unit ℕ (UR sig nD τ) ℕ cfg c) (t : Fin (cfg.N + 1))
    (howed : dat.owed t = 0) :
    dat.owesAt () t ⊢ (iprop(∃ W, owes (c : Thread nD τ) (0 : CellTallies nD τ sig Unit) W) : sProp 𝕄) := by
  unfold Pipeline.Dat.owesAt Pipeline.owesWithin
  iintro ⟨%W, -, HO⟩
  iexists W
  rw [howed]; iexact HO

set_option backward.isDefEq.respectTransparency.types false in

def runReg0 : RegionSeg (pcfgs (F := F)) adm (runDats m) () defs₀ runVar runL runLv 0 where
  win := launch0.win.to₀
  block_pos := launch0.block_pos
  stage_whole := launch0.stage_whole
  K := PEmpty
  osem k := k.elim
  ho := Pipeline.OwnSemFacts.none _
  hbody c := (body_obligation0 (fun c b => X1 m c b) c).loose
  hwaits := Pipeline.hwaits_of_owed_zero _ _ _ _ runL runLv 0 fun _ _ => rfl
  pre := runAt (X1 m ·)
  post := runAt (X2 m ·)
  X c := iprop(∃ r, prngReg c r)
  Y c := iprop(∃ r, prngReg c r)
  Z c := Pipeline.unscopedRest (Ix := Unit) (Name := ℕ) (U := UR sig nD τ) (Lvl := ℕ) spec0 c (fun b => X1 m c b)
  hentry c := by
    rw [Pipeline.ownSems0_none]
    have hsplit := Pipeline.arrays_of_unscopedBufs (p := 0) (pcfgs (F := F)) adm (runDats m) launch0.win launch0.arr_whole c
      ((runDats m 0 c).share_full fun _ => rfl) (fun b => X1 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 0 c) 0 rfl rfl); iexact Howes
    isplitl [Hprng]; · iexact Hprng
    iexact Hrest
  hin c := by
    rw [show (runDats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (runDats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (runDats m) ((runDats m 0 c).share_full fun _ => rfl)
      (fun b => X1 m c b) (fun b => X2 m c b) ((runDats m 0 c).arrAt · cfg0.N) (runF0 m c) (runRest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (runOwesOut (runDats m 0 c) (Fin.last _) rfl); iexact Howes

set_option backward.isDefEq.respectTransparency.types false in

def runReg1 : RegionSeg (pcfgs (F := F)) adm (runDats m) () defs₀ runVar runL runLv 1 where
  win := winFacts₀1
  block_pos := block_pos1
  stage_whole := stage_whole1
  K := PEmpty
  osem k := k.elim
  ho := Pipeline.OwnSemFacts.none _
  hbody c := (body_obligation1 (fun c b => X3 m c b) c).loose
  hwaits := Pipeline.hwaits_of_owed_zero _ _ _ _ runL runLv 1 fun _ _ => rfl
  pre := runAt (X3 m ·)
  post := runAt (X4 m ·)
  X c := iprop(∃ r, prngReg c r)
  Y c := iprop(∃ r, prngReg c r)
  Z c := Pipeline.unscopedRest (Ix := Unit) (Name := ℕ) (U := UR sig nD τ) (Lvl := ℕ) spec1 c (fun b => X3 m c b)
  hentry c := by
    rw [Pipeline.ownSems0_none]
    have hsplit := arrays1_of_unscopedBufs c (dat1 (fun c b => X3 m c b) c) rfl rfl rfl rfl (fun b => X3 m c b)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 1 c) 0 rfl rfl); iexact Howes
    isplitl [Hprng]; · iexact Hprng
    iexact Hrest
  hin c := by
    refine .trans ?_ (hin1 (fun c b => X3 m c b) c)
    unfold Pipeline.ΦA
    iintro ⟨Hprng, -, Hscoped⟩
    isplitl [Hscoped]; · iexact Hscoped
    iexact Hprng
  hout c := by
    rw [Pipeline.ownSems0_none]
    refine (hout1 (fun c b => X3 m c b) c).trans ?_
    unfold Pipeline.ΦA
    iintro ⟨Hscoped, Hprng⟩
    isplitl [Hprng]; · iexact Hprng
    isplitr; · iempintro
    iexact Hscoped
  hexit c := by
    have hjoin := unscopedBufs_of_arrays1 c (dat1 (fun c b => X3 m c b) c) rfl rfl rfl rfl (fun b => X3 m c b) (fun b => X4 m c b) (runRest1 m c)
    rw [Pipeline.unscopedBufs_held] at hjoin
    have hF : (fun w => (dat1 (fun c b => X3 m c b) c).arrAt w cfg1.N)
        = fun w => (fun b : Ref sig .tc => X4 m c b) (Pipeline.arrRef spec1 w) := funext (runF1 m c)
    iintro ⟨Harr, Howes, Hprng, Hrest⟩
    imodintro
    isplitl [Harr Hrest]
    · iapply hjoin
      isplitl [Harr]
      · iapply (Entails.of_eq (congrArg (dat1 (fun c b => X3 m c b) c).arrays hF)); iexact Harr
      iexact Hrest
    isplitl [Hprng]; · iexact Hprng
    iapply (runOwesOut (runDats m 1 c) (Fin.last _) rfl); iexact Howes

set_option backward.isDefEq.respectTransparency.types false in

def runReg2 : RegionSeg (pcfgs (F := F)) adm (runDats m) () defs₀ runVar runL runLv 2 where
  win := launch2.win.to₀
  block_pos := launch2.block_pos
  stage_whole := launch2.stage_whole
  K := PEmpty
  osem k := k.elim
  ho := Pipeline.OwnSemFacts.none _
  hbody c := (body_obligation2 (fun c b => X5 m c b) c).loose
  hwaits := Pipeline.hwaits_of_owed_zero _ _ _ _ runL runLv 2 fun _ _ => rfl
  pre := runAt (X5 m ·)
  post := runAt (X6 m ·)
  X c := iprop(∃ r, prngReg c r)
  Y c := iprop(∃ r, prngReg c r)
  Z c := Pipeline.unscopedRest (Ix := Unit) (Name := ℕ) (U := UR sig nD τ) (Lvl := ℕ) spec2 c (fun b => X5 m c b)
  hentry c := by
    rw [Pipeline.ownSems0_none]
    have hsplit := Pipeline.arrays_of_unscopedBufs (p := 2) (pcfgs (F := F)) adm (runDats m) launch2.win launch2.arr_whole c
      ((runDats m 2 c).share_full fun _ => rfl) (fun b => X5 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]; · iapply (runOwesIn (runDats m 2 c) 0 rfl rfl); iexact Howes
    isplitl [Hprng]; · iexact Hprng
    iexact Hrest
  hin c := by
    rw [show (runDats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (runDats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (runDats m) ((runDats m 2 c).share_full fun _ => rfl)
      (fun b => X5 m c b) (fun b => X6 m c b) ((runDats m 2 c).arrAt · cfg2.N) (runF2 m c) (runRest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (runOwesOut (runDats m 2 c) (Fin.last _) rfl); iexact Howes

abbrev runSegs : List (Seg (pcfgs (F := F)) adm (runDats m) () defs₀ runVar runL runLv) :=
  [ .host (runHost hostOps0 hostOps0_sub hostOps0_fresh (fun c b => m (c, b))),
    .region (runReg0 m),
    .host (runHost hostOps1 hostOps1_sub hostOps1_fresh (X2 m ·)),
    .region (runReg1 m),
    .host (runHost hostOps2 hostOps2_sub hostOps2_fresh (X4 m ·)),
    .region (runReg2 m),
    .host (runHost hostOps3 hostOps3_sub hostOps3_fresh (X6 m ·)) ]

theorem main_run (c : Dev nD) : main (F := F) c = Seg.run (runSegs m) := (main_chain c).trans (by chain_rfl)

theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev runEnd (c : Dev nD) : sProp 𝕄 :=
  iprop(StableHlo.held (c : Thread nD τ) (Pipeline.ucRefs τ sig) (X7 m c) ∗ ∃ r, prngReg c r)

theorem runEnd_of (c : Dev nD) :
    runAt (X7 m ·) c ⊢ iprop(runEnd m c ∗ ∃ W, owes (c : Thread nD τ) (0 : CellTallies nD τ sig Unit) W) := by
  iintro ⟨Hh, Hprng, Howes⟩
  isplitr [Howes]
  · isplitl [Hh]; · iexact Hh
    iexact Hprng
  iexact Howes

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = X7 m c b) :=
  Pipeline.θ_run_regions_kit (pcfgs (F := F)) adm (runDats m) () cellOf_inj emb₁ defs₀ runVar runL runLv m ρ main (runSegs m)
    (fun c Q => by rw [main_run m c])
    (by simp only [runSegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := runAt (fun c b => m (c, b))) (Tₙ := runEnd m)
    (hch := ⟨fun _ => .rfl, fun _ => .rfl, fun _ => .rfl, fun _ => .rfl, fun _ => .rfl, fun _ => .rfl, fun _ => .rfl, fun c => runEnd_of m c⟩)
    (hinit := by
      refine Pipeline.initEach runL runLv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, Howes, -, Hprng, -⟩, -⟩
      imodintro
      isplitl [Hh]; · iexact Hh
      isplitl [Hprng]; · iexists _; iexact Hprng
      iexists ∅; iexact Howes)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (run_mem_uc main_arg0 (by decide))).trans (X7_main_arg0 m c), (h c _ (run_mem_uc main_arg1 (by decide))).trans (X7_main_arg1 m c),
     (h c _ (run_mem_uc main_arg2 (by decide))).trans (X7_main_arg2 m c), (h c _ (run_mem_uc main_arg3 (by decide))).trans (X7_main_arg3 m c)⟩)
    (run_all m ρ)

end Cert.KernelIdeal.Hand

end
-- ==== Proof.Spec.lean ====
/- The specification over the reals: packed projection, softmax attention head by head, output projection with bias. -/
import Mathlib.Analysis.SpecialFunctions.Exp
import Mathlib.Algebra.BigOperators.Fin

noncomputable section

open scoped BigOperators

namespace Cert.Spec

def qcol (hh : Fin 12) (dd : Fin 64) : Fin 2304 := ⟨hh.val * 64 + dd.val, by have := hh.isLt; have := dd.isLt; omega⟩

def kcol (hh : Fin 12) (dd : Fin 64) : Fin 2304 := ⟨768 + (hh.val * 64 + dd.val), by have := hh.isLt; have := dd.isLt; omega⟩

def vcol (hh : Fin 12) (dd : Fin 64) : Fin 2304 := ⟨1536 + (hh.val * 64 + dd.val), by have := hh.isLt; have := dd.isLt; omega⟩

def headOf (e : Fin 768) : Fin 12 := ⟨e.val / 64, by have := e.isLt; omega⟩
def laneOf (e : Fin 768) : Fin 64 := ⟨e.val % 64, Nat.mod_lt _ (by decide)⟩

def qkvR (x : Fin 4 → Fin 2048 → Fin 768 → ℝ) (w : Fin 768 → Fin 2304 → ℝ) (b : Fin 4) (n : Fin 2048) (e : Fin 2304) : ℝ :=
  ∑ d : Fin 768, x b n d * w d e

def scoreR (P : Fin 4 → Fin 2048 → Fin 2304 → ℝ) (b : Fin 4) (hh : Fin 12) (n j : Fin 2048) : ℝ :=
  (∑ dd : Fin 64, P b n (qcol hh dd) * P b j (kcol hh dd)) * (1 / 8)

def attnR (P : Fin 4 → Fin 2048 → Fin 2304 → ℝ) (b : Fin 4) (n : Fin 2048) (hh : Fin 12) (dd : Fin 64) : ℝ :=
  (∑ j : Fin 2048, Real.exp (scoreR P b hh n j) * P b j (vcol hh dd)) / (∑ j : Fin 2048, Real.exp (scoreR P b hh n j))

def attnFlat (P : Fin 4 → Fin 2048 → Fin 2304 → ℝ) (b : Fin 4) (n : Fin 2048) (e : Fin 768) : ℝ :=
  attnR P b n (headOf e) (laneOf e)

def outR (A : Fin 4 → Fin 2048 → Fin 768 → ℝ) (wo : Fin 768 → Fin 768 → ℝ) (bias : Fin 768 → ℝ) (b : Fin 4) (n : Fin 2048) (d : Fin 768) : ℝ :=
  (∑ e : Fin 768, A b n e * wo e d) + bias d

def specR (x : Fin 4 → Fin 2048 → Fin 768 → ℝ) (w : Fin 768 → Fin 2304 → ℝ) (wo : Fin 768 → Fin 768 → ℝ) (bias : Fin 768 → ℝ)
    (b : Fin 4) (n : Fin 2048) (d : Fin 768) : ℝ :=
  outR (attnFlat (qkvR x w)) wo bias b n d

end Cert.Spec

end
-- ==== Proof.KI.Val0.lean ====
/- The packed projection region's output array, entry by entry. -/
import proofs.«401092_j26680336843340_3_alg».proof.Proof.KI.Reg0
import proofs.«401092_j26680336843340_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

theorem coe_sum {ι : Type} (s : Finset ι) (f : ι → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

theorem lhs_row (i : S1024x2304.Idx) (q : dot_S1024x768_S768x2304_S1024x2304_1_0_0_1_n_n.contr.Idx) :
    (dot_S1024x768_S768x2304_S1024x2304_1_0_0_1_n_n.lhsIdx i q 0).val = (i 0).val := by
  unfold DotDims.lhsIdx
  rw [dif_neg (show ¬(0 : Fin S1024x768.rank) ∈ dot_S1024x768_S768x2304_S1024x2304_1_0_0_1_n_n.lhsBatch by decide), dif_pos (show (0 : Fin S1024x768.rank) ∈ dot_S1024x768_S768x2304_S1024x2304_1_0_0_1_n_n.lhsNonContracting by decide)]
  rfl
theorem lhs_contr (i : S1024x2304.Idx) (q : dot_S1024x768_S768x2304_S1024x2304_1_0_0_1_n_n.contr.Idx) :
    (dot_S1024x768_S768x2304_S1024x2304_1_0_0_1_n_n.lhsIdx i q 1).val = (q ⟨0, by decide⟩).val :=
  dot_S1024x768_S768x2304_S1024x2304_1_0_0_1_n_n.lhsIdx_val_of_single rfl i q
theorem rhs_contr (i : S1024x2304.Idx) (q : dot_S1024x768_S768x2304_S1024x2304_1_0_0_1_n_n.contr.Idx) :
    (dot_S1024x768_S768x2304_S1024x2304_1_0_0_1_n_n.rhsIdx i q 0).val = (q ⟨0, by decide⟩).val :=
  dot_S1024x768_S768x2304_S1024x2304_1_0_0_1_n_n.rhsIdx_val_of_single rfl i q
theorem rhs_col (i : S1024x2304.Idx) (q : dot_S1024x768_S768x2304_S1024x2304_1_0_0_1_n_n.contr.Idx) :
    (dot_S1024x768_S768x2304_S1024x2304_1_0_0_1_n_n.rhsIdx i q 1).val = (i 1).val := by
  unfold DotDims.rhsIdx
  rw [dif_neg (show ¬(1 : Fin S768x2304.rank) ∈ dot_S1024x768_S768x2304_S1024x2304_1_0_0_1_n_n.rhsBatch by decide), dif_pos (show (1 : Fin S768x2304.rank) ∈ dot_S1024x768_S768x2304_S1024x2304_1_0_0_1_n_n.rhsNonContracting by decide)]
  rfl

theorem pay_apply (x0 : Vec Ideal S1024x768 .f32) (x1 : Vec Ideal S768x2304 .f32) (p : Fin 1024) (q : Fin 2304) :
    k0_pay1 (F := Ideal) x0 x1 (ix2 p q) = ∑ d : Fin 768, x0 (ix2 p d) * x1 (ix2 d q) := by
  unfold k0_pay1
  simp only [matmul, shapeCast_self]
  refine Eq.trans (truncf_apply (φ := .f32) (ψ := .bf16) _ bitsLt_bf16_f32 (ix2 p q)) ?_
  rw [Ideal.matmul_constant_zero_apply, ← Equiv.sum_comp (contrEquiv1 dot_S1024x768_S768x2304_S1024x2304_1_0_0_1_n_n 768 rfl rfl).symm]
  refine Finset.sum_congr rfl fun k _ => ?_
  have hk := contrEquiv1_symm_val dot_S1024x768_S768x2304_S1024x2304_1_0_0_1_n_n 768 rfl rfl k
  have el : dot_S1024x768_S768x2304_S1024x2304_1_0_0_1_n_n.lhsIdx (ix2 p q) ((contrEquiv1 dot_S1024x768_S768x2304_S1024x2304_1_0_0_1_n_n 768 rfl rfl).symm k) = ix2 p k := funext fun a => Fin.ext (by
    match a with
    | ⟨0, _⟩ => exact lhs_row _ _
    | ⟨1, _⟩ => exact (lhs_contr _ _).trans hk)
  have er : dot_S1024x768_S768x2304_S1024x2304_1_0_0_1_n_n.rhsIdx (ix2 p q) ((contrEquiv1 dot_S1024x768_S768x2304_S1024x2304_1_0_0_1_n_n 768 rfl rfl).symm k) = ix2 k q := funext fun a => Fin.ext (by
    match a with
    | ⟨0, _⟩ => exact (rhs_contr _ _).trans hk
    | ⟨1, _⟩ => exact rhs_col _ _)
  rw [el, er]
  rfl

theorem block_val (x0 : Vec Ideal S1024x768 .f32) (x1 : Vec Ideal S768x2304 .f32)
    (X : Fin 8192 → Fin 768 → ℝ) (Wm : Fin 768 → Fin 2304 → ℝ) (r : Fin 8192) (p : Fin 1024) (q : Fin 2304)
    (h0 : ∀ d : Fin 768, x0 (ix2 p d) = ((X r d : ℝ) : EReal)) (h1 : ∀ d : Fin 768, x1 (ix2 d q) = ((Wm d q : ℝ) : EReal)) :
    k0_pay1 (F := Ideal) x0 x1 (ix2 p q) = ((∑ d : Fin 768, X r d * Wm d q : ℝ) : EReal) := by
  rw [pay_apply, coe_sum]
  refine Finset.sum_congr rfl fun d _ => ?_
  rw [h0 d, h1 d, EReal.coe_mul]

def qkvArr (X : Fin 8192 → Fin 768 → ℝ) (Wm : Fin 768 → Fin 2304 → ℝ) : S8192x2304.Idx → EReal :=
  fun i => ((∑ d : Fin 768, X ⟨(i 0).val, (i 0).isLt⟩ d * Wm d ⟨(i 1).val, (i 1).isLt⟩ : ℝ) : EReal)

theorem qkvArr_apply (X : Fin 8192 → Fin 768 → ℝ) (Wm : Fin 768 → Fin 2304 → ℝ) (i : S8192x2304.Idx) (r : Fin 8192) (e : Fin 2304)
    (hr : (i 0).val = r.val) (he : (i 1).val = e.val) :
    qkvArr X Wm i = ((∑ d : Fin 768, X r d * Wm d e : ℝ) : EReal) := by
  have h0 : (⟨(i 0).val, (i 0).isLt⟩ : Fin 8192) = r := Fin.ext hr
  have h1 : (⟨(i 1).val, (i 1).isLt⟩ : Fin 2304) = e := Fin.ext he
  unfold qkvArr
  rw [h0, h1]

theorem zeros2 : (![0, 0] : Fin 2 → Nat) = fun _ => 0 := funext fun a => by
  match a with
  | ⟨0, _⟩ => rfl
  | ⟨1, _⟩ => rfl

theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

theorem xblk_apply (c : Dev nD) (t : Fin cfg0.N) (x : S1024x768.Idx) (k : S8192x768.Idx)
    (hk0 : (k 0).val = 1024 * t.val + (x 0).val) (hk1 : (k 1).val = (x 1).val) :
    (iblk0 V c 0 t : Vec Ideal S1024x768 .f32) x = (V c main_v0 : S8192x768.Idx → EReal) k := by
  obtain ⟨e0, e1, -⟩ := index_facts t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 768 + 1 * (x 1).val = (k 1).val; rw [e1, hk1]; omega

theorem wblk_apply (c : Dev nD) (t : Fin cfg0.N) (x : S768x2304.Idx) :
    (iblk0 V c 1 t : Vec Ideal S768x2304 .f32) x = (V c main_arg1 : S768x2304.Idx → EReal) x := by
  obtain ⟨-, -, e2, e3, -⟩ := index_facts t
  unfold iblk0
  rw [View.read_apply]
  show V c main_arg1 _ = V c main_arg1 _
  congr 1
  funext a
  apply Fin.ext
  match a with
  | ⟨0, _⟩ => show win0_1.index t (0 : Fin 2) * 768 + 1 * (x 0).val = (x 0).val; rw [e2]; omega
  | ⟨1, _⟩ => show win0_1.index t (1 : Fin 2) * 2304 + 1 * (x 1).val = (x 1).val; rw [e3]; omega

theorem flushed_qkv (c : Dev nD) (X : Fin 8192 → Fin 768 → ℝ) (Wm : Fin 768 → Fin 2304 → ℝ)
    (hX : ∀ r d, (V c main_v0 : S8192x768.Idx → EReal) (ix2 r d) = ((X r d : ℝ) : EReal))
    (hW : ∀ d e, (V c main_arg1 : S768x2304.Idx → EReal) (ix2 d e) = ((Wm d e : ℝ) : EReal)) (t : Fin cfg0.N) :
    (dat0 V c).flushed 2 t = ((cfg0.win 2).blk t).view.read (Elt Ideal) (qkvArr X Wm) := by
  show (cfg0.win 2).cut (grid0.coords t) ((dat0 V c).after 2 t) = _
  rw [after0_2]
  unfold out0_2
  rw [View.canon_unit_zero zeros2]
  simp only [View.ld_unit_zero (S := S1024x768) zeros2, View.ld_unit_zero (S := S768x2304) zeros2]
  obtain ⟨-, -, -, -, e4, e5⟩ := index_facts t
  have hN : cfg0.N = 8 := N_0
  have ht : t.val < 8 := hN ▸ t.isLt
  funext j
  obtain ⟨p, q, rfl⟩ : ∃ (p : Fin 1024) (q : Fin 2304), j = ix2 p q := ⟨j 0, j 1, eq_ix2 j⟩
  have hp : p.val < 1024 := p.isLt
  refine (block_val (iblk0 V c 0 t) (iblk0 V c 1 t) X Wm ⟨1024 * t.val + p.val, by omega⟩ p q
    (fun d => (xblk_apply V c t (ix2 p d) (ix2 ⟨1024 * t.val + p.val, by omega⟩ d) rfl rfl).trans (hX _ d))
    (fun d => (wblk_apply V c t (ix2 d q)).trans (hW d q))).trans ?_
  rw [View.read_apply]
  refine (qkvArr_apply X Wm _ ⟨1024 * t.val + p.val, by omega⟩ q ?_ ?_).symm
  · show win0_2.index t (0 : Fin 2) * 1024 + 1 * p.val = 1024 * t.val + p.val
    rw [e4]; omega
  · show win0_2.index t (1 : Fin 2) * 2304 + 1 * q.val = q.val
    rw [e5]; omega

end

theorem mem_outBlk (t : Fin cfg0.N) (i : S8192x2304.Idx) :
    i ∈ ((cfg0.win 2).blk t).view.set ↔ ∀ a : Fin 2, win0_2.index t a * S1024x2304.size a ≤ (i a).val ∧ (i a).val < win0_2.index t a * S1024x2304.size a + S1024x2304.size a := by
  show i ∈ ((View.whole main_v1).slice (win0_2.rect t)).set ↔ _
  rw [View.set_slice_whole, Rect.mem_set_unit]
  exact Iff.rfl

theorem out_cover (i : S8192x2304.Idx) : ∃ t : Fin cfg0.N, (cfg0.win 2).flush t = true ∧ i ∈ ((cfg0.win 2).blk t).view.set := by
  have hi0 : (i 0).val < 8192 := (i 0).isLt
  have hi1 : (i 1).val < 2304 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, e4, e5⟩ := index_facts t
  refine ⟨t, flush0_2 t, ?_⟩
  rw [mem_outBlk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 2304 ≤ (i 1).val ∧ (i 1).val < win0_2.index t (1 : Fin 2) * 2304 + 2304
    rw [e5]; omega

theorem arr0_eq (V : (c : Dev nD) → (b : Ref sig .tc) → Buf (Elt Ideal) ((c : Thread nD τ).loc b)) (c : Dev nD)
    (X : Fin 8192 → Fin 768 → ℝ) (Wm : Fin 768 → Fin 2304 → ℝ)
    (hX : ∀ r d, (V c main_v0 : S8192x768.Idx → EReal) (ix2 r d) = ((X r d : ℝ) : EReal))
    (hW : ∀ d e, (V c main_arg1 : S768x2304.Idx → EReal) (ix2 d e) = ((Wm d e : ℝ) : EReal)) :
    (dat0 V c).arrAt 2 cfg0.N = qkvArr X Wm :=
  (dat0 V c).arrAt_eq_of_cover 2 (qkvArr X Wm) (fun t _ => flushed_qkv V c X Wm hX hW t) out_cover

theorem arr0_val (V : (c : Dev nD) → (b : Ref sig .tc) → Buf (Elt Ideal) ((c : Thread nD τ).loc b)) (c : Dev nD)
    (X : Fin 8192 → Fin 768 → ℝ) (Wm : Fin 768 → Fin 2304 → ℝ)
    (hX : ∀ r d, (V c main_v0 : S8192x768.Idx → EReal) (ix2 r d) = ((X r d : ℝ) : EReal))
    (hW : ∀ d e, (V c main_arg1 : S768x2304.Idx → EReal) (ix2 d e) = ((Wm d e : ℝ) : EReal))
    (r : Fin 8192) (e : Fin 2304) :
    ((dat0 V c).arrAt 2 cfg0.N : S8192x2304.Idx → EReal) (ix2 r e) = ((∑ d : Fin 768, X r d * Wm d e : ℝ) : EReal) := by
  rw [arr0_eq V c X Wm hX hW]
  exact qkvArr_apply X Wm (ix2 r e) r e rfl rfl

end Cert.KernelIdeal.Hand

end
-- ==== Proof.KI.R1Spec.lean ====
/- One key block's update of the running maximum, sum and accumulator, and the final quotient, over the reals. -/
import Mathlib.Analysis.SpecialFunctions.Exp
import Mathlib.Algebra.BigOperators.Fin
import Mathlib.Order.Fin.Basic

noncomputable section

open scoped BigOperators

namespace Cert.BlockSpec

def col4 (h : Fin 4) (dd : Fin 64) : Fin 256 := ⟨h.val * 64 + dd.val, by have := h.isLt; have := dd.isLt; omega⟩

def head4 (e : Fin 256) : Fin 4 := ⟨e.val / 64, by have := e.isLt; omega⟩
def lane4 (e : Fin 256) : Fin 64 := ⟨e.val % 64, Nat.mod_lt _ (by decide)⟩

variable (Qs : Fin 2048 → Fin 256 → ℝ) (Kb Vb : Fin 512 → Fin 256 → ℝ) (Mp Lp : Fin 2048 → Fin 4 → ℝ) (Ap : Fin 2048 → Fin 256 → ℝ)

def score (n : Fin 2048) (h : Fin 4) (j : Fin 512) : ℝ := ∑ dd : Fin 64, Qs n (col4 h dd) * Kb j (col4 h dd)

def mNew (n : Fin 2048) (h : Fin 4) : ℝ := max (Mp n h) (Finset.univ.sup' Finset.univ_nonempty (score Qs Kb n h))

def lNew (n : Fin 2048) (h : Fin 4) : ℝ :=
  Real.exp (Mp n h - mNew Qs Kb Mp n h) * Lp n h + ∑ j : Fin 512, Real.exp (score Qs Kb n h j - mNew Qs Kb Mp n h)

def aNew (n : Fin 2048) (e : Fin 256) : ℝ :=
  Real.exp (Mp n (head4 e) - mNew Qs Kb Mp n (head4 e)) * Ap n e
    + ∑ j : Fin 512, Real.exp (score Qs Kb n (head4 e) j - mNew Qs Kb Mp n (head4 e)) * Vb j e

def oNew (n : Fin 2048) (e : Fin 256) : ℝ := aNew Qs Kb Vb Mp Ap n e / lNew Qs Kb Mp Lp n (head4 e)

end Cert.BlockSpec

namespace Cert.GroupSpec

open Cert.BlockSpec

def qc (j : Fin 3) (e : Fin 256) : Fin 2304 := ⟨j.val * 256 + e.val, by have := j.isLt; have := e.isLt; omega⟩
def kc (j : Fin 3) (e : Fin 256) : Fin 2304 := ⟨768 + (j.val * 256 + e.val), by have := j.isLt; have := e.isLt; omega⟩
def vc (j : Fin 3) (e : Fin 256) : Fin 2304 := ⟨1536 + (j.val * 256 + e.val), by have := j.isLt; have := e.isLt; omega⟩

def krow (kv : ℕ) (jj : Fin 512) : Fin 2048 := ⟨(kv % 4) * 512 + jj.val, by have := jj.isLt; have := Nat.mod_lt kv (by decide : 0 < 4); omega⟩

variable (Pb : Fin 2048 → Fin 2304 → ℝ) (j : Fin 3) (negR : ℝ)

def Qs (n : Fin 2048) (e : Fin 256) : ℝ := Pb n (qc j e) * (1 / 8)
def Kb (kv : ℕ) (jj : Fin 512) (e : Fin 256) : ℝ := Pb (krow kv jj) (kc j e)
def Vb (kv : ℕ) (jj : Fin 512) (e : Fin 256) : ℝ := Pb (krow kv jj) (vc j e)

def stM : ℕ → Fin 2048 → Fin 4 → ℝ
  | 0 => fun _ _ => negR
  | k + 1 => mNew (Qs Pb j) (Kb Pb j k) (stM k)
def stL : ℕ → Fin 2048 → Fin 4 → ℝ
  | 0 => fun _ _ => 0
  | k + 1 => lNew (Qs Pb j) (Kb Pb j k) (stM Pb j negR k) (stL k)
def stA : ℕ → Fin 2048 → Fin 256 → ℝ
  | 0 => fun _ _ => 0
  | k + 1 => aNew (Qs Pb j) (Kb Pb j k) (Vb Pb j k) (stM Pb j negR k) (stA k)

def outG (n : Fin 2048) (e : Fin 256) : ℝ :=
  oNew (Qs Pb j) (Kb Pb j 3) (Vb Pb j 3) (stM Pb j negR 3) (stL Pb j negR 3) (stA Pb j negR 3) n e

end Cert.GroupSpec

end
-- ==== Proof.LibStreamSoftmax.lean ====
/- Real-number facts for a softmax evaluated block by block with a running maximum: the rescaled partial sums telescope to the plain quotient. -/
import Idealize.ShloMosaic.PureOps.Ideal
import Mathlib.Analysis.SpecialFunctions.Exp
import Mathlib.Algebra.BigOperators.Fin
import Mathlib.Algebra.BigOperators.Field
import Mathlib.Algebra.Order.BigOperators.Ring.Finset
import Mathlib.Data.EReal.Basic
import Mathlib.Data.EReal.Operations
import Mathlib.Data.EReal.Inv
import Mathlib.Logic.Equiv.Fin.Basic

noncomputable section

open scoped BigOperators
open Idealize.ShloMosaic

namespace Cert.FlashMath

theorem exp_coe (r : ℝ) : Ideal.exp (r : EReal) = ((Real.exp r : ℝ) : EReal) := rfl

theorem div_coe' (a b : ℝ) (hb : b ≠ 0) : Ideal.div (a : EReal) (b : EReal) = ((a / b : ℝ) : EReal) := by
  rw [Ideal.div_coe hb, ← EReal.coe_mul, mul_one_div]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem max_coe (a b : ℝ) : max (a : EReal) (b : EReal) = ((max a b : ℝ) : EReal) :=
  (EReal.coe_strictMono.monotone.map_max (a := a) (b := b)).symm

theorem max_bot_coe (a : ℝ) : max (⊥ : EReal) (a : EReal) = (a : EReal) := max_bot_left _

theorem fold_max_coe_eq {ι : Type*} (s : Finset ι) (hs : s.Nonempty) (f : ι → ℝ) :
    s.fold max (⊥ : EReal) (fun i => (f i : EReal)) = ((s.sup' hs f : ℝ) : EReal) := by
  induction hs using Finset.Nonempty.cons_induction with
  | singleton a => rw [Finset.fold_singleton, Finset.sup'_singleton, max_bot_right]
  | cons a s ha hs ih => rw [Finset.fold_cons, ih, Finset.sup'_cons hs, max_coe]

theorem fold_max_coe {ι : Type*} (s : Finset ι) (hs : s.Nonempty) (f : ι → ℝ) :
    ∃ r : ℝ, s.fold max (⊥ : EReal) (fun i => (f i : EReal)) = (r : EReal) :=
  ⟨_, fold_max_coe_eq s hs f⟩

theorem c8 : Ideal.ofBits .f32 0x3E000000#32 = (((1 : ℝ) / 8 : ℝ) : EReal) := by
  simp [Ideal.ofBits, Ideal.ieee]
  rw [← EReal.coe_mul]
  norm_num

theorem negBig : ∃ r : ℝ, Ideal.ofBits .f32 0xFF333332#32 = (r : EReal) := by
  have h1 : ¬ ((BitVec.extractLsb' 23 8 (0xFF333332#32 : BitVec 32)).toNat = 2 ^ 8 - 1) := by decide
  have h2 : ¬ ((BitVec.extractLsb' 23 8 (0xFF333332#32 : BitVec 32)).toNat = 0) := by decide
  show ∃ r : ℝ, Ideal.ieee 8 23 (0xFF333332#32 : BitVec 32) = (r : EReal)
  simp only [Ideal.ieee, if_neg h1, if_neg h2]
  exact ⟨_, rfl⟩

theorem negInf : Ideal.ofBits .f32 0xFF800000#32 = (⊥ : EReal) := by
  simp [Ideal.ofBits, Ideal.ieee]

theorem zero32 : Ideal.ofBits .f32 0x00000000#32 = (0 : EReal) := by
  simp [Ideal.ofBits, Ideal.ieee]

section Stream

variable (s v : ℕ → Fin 512 → ℝ) (mm : ℕ → ℝ)

def lSeq (s : ℕ → Fin 512 → ℝ) (mm : ℕ → ℝ) : ℕ → ℝ
  | 0 => 0
  | k + 1 => Real.exp (mm k - mm (k + 1)) * lSeq s mm k + ∑ j, Real.exp (s k j - mm (k + 1))

def aSeq (s v : ℕ → Fin 512 → ℝ) (mm : ℕ → ℝ) : ℕ → ℝ
  | 0 => 0
  | k + 1 => Real.exp (mm k - mm (k + 1)) * aSeq s v mm k + ∑ j, Real.exp (s k j - mm (k + 1)) * v k j

theorem step_eq (m m' S : ℝ) (x w : Fin 512 → ℝ) :
    Real.exp (m - m') * (Real.exp (-m) * S) + ∑ j, Real.exp (x j - m') * w j
      = Real.exp (-m') * (S + ∑ j, Real.exp (x j) * w j) := by
  have h1 : Real.exp (m - m') * Real.exp (-m) = Real.exp (-m') := by
    rw [← Real.exp_add]; congr 1; ring
  have h2 : ∀ j, Real.exp (x j - m') * w j = Real.exp (-m') * (Real.exp (x j) * w j) := fun j => by
    rw [← mul_assoc, ← Real.exp_add]; congr 2; ring
  rw [← mul_assoc, h1, mul_add, Finset.mul_sum]
  exact congrArg _ (Finset.sum_congr rfl fun j _ => h2 j)

theorem lSeq_eq (K : ℕ) :
    lSeq s mm K = Real.exp (- mm K) * ∑ k ∈ Finset.range K, ∑ j, Real.exp (s k j) := by
  induction K with
  | zero => simp [lSeq]
  | succ K ih =>
    have h := step_eq (mm K) (mm (K + 1)) (∑ k ∈ Finset.range K, ∑ j, Real.exp (s k j)) (s K) (fun _ => 1)
    simp only [mul_one] at h
    rw [lSeq, ih, Finset.sum_range_succ, h]

theorem aSeq_eq (K : ℕ) :
    aSeq s v mm K = Real.exp (- mm K) * ∑ k ∈ Finset.range K, ∑ j, Real.exp (s k j) * v k j := by
  induction K with
  | zero => simp [aSeq]
  | succ K ih =>
    rw [aSeq, ih, Finset.sum_range_succ,
      step_eq (mm K) (mm (K + 1)) (∑ k ∈ Finset.range K, ∑ j, Real.exp (s k j) * v k j) (s K) (v K)]

theorem blocks_exp_pos (K : ℕ) (hK : 0 < K) : 0 < ∑ k ∈ Finset.range K, ∑ j, Real.exp (s k j) :=
  Finset.sum_pos (fun _ _ => Finset.sum_pos (fun _ _ => Real.exp_pos _) Finset.univ_nonempty)
    (Finset.nonempty_range_iff.mpr hK.ne')

theorem lSeq_pos (K : ℕ) (hK : 0 < K) : 0 < lSeq s mm K := by
  rw [lSeq_eq]
  exact mul_pos (Real.exp_pos _) (blocks_exp_pos s K hK)

theorem stream_eq (K : ℕ) :
    aSeq s v mm K / lSeq s mm K
      = (∑ k ∈ Finset.range K, ∑ j, Real.exp (s k j) * v k j) / (∑ k ∈ Finset.range K, ∑ j, Real.exp (s k j)) := by
  rw [aSeq_eq, lSeq_eq, mul_div_mul_left _ _ (Real.exp_pos _).ne']

end Stream

theorem sum_blocks (f : Fin 2048 → ℝ) :
    (∑ k ∈ Finset.range 4, ∑ j : Fin 512,
        f ⟨(k % 4) * 512 + j.val, by have := j.isLt; have := Nat.mod_lt k (by decide : 0 < 4); omega⟩)
      = ∑ J : Fin 2048, f J := by
  rw [Finset.sum_range (fun k => ∑ j : Fin 512,
        f ⟨(k % 4) * 512 + j.val, by have := j.isLt; have := Nat.mod_lt k (by decide : 0 < 4); omega⟩)]
  rw [← Fintype.sum_prod_type']
  refine Fintype.sum_equiv (finProdFinEquiv.trans (finCongr (by norm_num : 4 * 512 = 2048))) _ _ ?_
  rintro ⟨k, j⟩
  refine congrArg f (Fin.ext ?_)
  show k.val % 4 * 512 + j.val = j.val + 512 * k.val
  rw [Nat.mod_eq_of_lt k.isLt]; ring

theorem sum_exp_shift {ι : Type*} [Fintype ι] (s : ι → ℝ) (M : ℝ) :
    ∑ j, Real.exp (s j - M) = Real.exp (-M) * ∑ j, Real.exp (s j) := by
  rw [Finset.mul_sum]
  refine Finset.sum_congr rfl fun j _ => ?_
  rw [← Real.exp_add]; congr 1; ring

theorem softmax_shift {ι : Type*} [Fintype ι] [Nonempty ι] (s v : ι → ℝ) (M : ℝ) :
    (∑ j, (Real.exp (s j - M) / ∑ j', Real.exp (s j' - M)) * v j)
      = (∑ j, Real.exp (s j) * v j) / (∑ j, Real.exp (s j)) := by
  rw [sum_exp_shift, Finset.sum_div]
  refine Finset.sum_congr rfl fun j _ => ?_
  have h : Real.exp (s j - M) = Real.exp (-M) * Real.exp (s j) := by
    rw [← Real.exp_add]; congr 1; ring
  rw [h, mul_div_mul_left _ _ (Real.exp_pos _).ne', div_mul_eq_mul_div]

theorem scale_sum {ι : Type*} (t : Finset ι) (q k : ι → ℝ) (c : ℝ) :
    (∑ d ∈ t, (q d * c) * k d) = (∑ d ∈ t, q d * k d) * c := by
  rw [Finset.sum_mul]
  exact Finset.sum_congr rfl fun d _ => by ring

end Cert.FlashMath

end
-- ==== Proof.KI.R1Head.lean ====
/- One head's update of one key block over the reals: scores, new maximum, rescale factor, terms, new sum, new accumulator columns. -/
import proofs.«401092_j26680336843340_3_alg».proof.Proof.KI.R1Defs
import proofs.«401092_j26680336843340_3_alg».proof.Proof.KI.R1Spec
import proofs.«401092_j26680336843340_3_alg».proof.Proof.LibStreamSoftmax
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws
import Mathlib.Analysis.SpecialFunctions.Exp
import Mathlib.Data.EReal.Basic
import Mathlib.Data.EReal.Operations

set_option maxRecDepth 16384

noncomputable section

open scoped BigOperators

namespace Cert.KernelIdeal.Hand.Head

open Idealize.ShloMosaic Idealize.ShloMosaic.ValueIdx
open Idealize.ShloMosaic.TcCoe Idealize.ShloMosaic.Tactic
open Idealize.SL.Sem
open Cert.KernelIdeal Cert.KernelIdeal.Gen Cert.KernelIdeal.Hand
open Cert.BlockSpec Cert.FlashMath

theorem qk_lhs0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem qk_lhs1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem qk_rhs0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem qk_rhs1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

theorem qk_apply (a : FVec Ideal S2048x64 .bf16) (b : FVec Ideal S512x64 .bf16) (n : Fin 2048) (j : Fin 512) :
    matmul dot_S2048x64_S512x64_S2048x512_1_1_0_0_n_n none a b (constant S2048x512 .f32 0x00000000#32) (ix2 n j)
      = ∑ d : Fin 64, a (ix2 n d) * b (ix2 j d) := by
  refine (Ideal.matmul_constant_zero_apply dot_S2048x64_S512x64_S2048x512_1_1_0_0_n_n none a b (ix2 n j)).trans ?_
  rw [← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 n j) ((contrEquiv1 dot_S2048x64_S512x64_S2048x512_1_1_0_0_n_n 64 rfl rfl).symm k) = ix2 n k := funext fun c => Fin.ext (by
    match c with
    | ⟨0, _⟩ => exact qk_lhs0 _ _
    | ⟨1, _⟩ => exact (qk_lhs1 _ _).trans hk)
  have er : dot_S2048x64_S512x64_S2048x512_1_1_0_0_n_n.rhsIdx (ix2 n j) ((contrEquiv1 dot_S2048x64_S512x64_S2048x512_1_1_0_0_n_n 64 rfl rfl).symm k) = ix2 j k := funext fun c => Fin.ext (by
    match c with
    | ⟨0, _⟩ => exact qk_rhs0 _ _
    | ⟨1, _⟩ => exact (qk_rhs1 _ _).trans hk)
  rw [el, er]

theorem pv_lhs0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem pv_lhs1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem pv_rhs0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem pv_rhs1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

theorem pv_apply (a : FVec Ideal S2048x512 .bf16) (b : FVec Ideal S512x64 .bf16) (n : Fin 2048) (d : Fin 64) :
    matmul dot_S2048x512_S512x64_S2048x64_1_0_0_1_n_n none a b (constant S2048x64 .f32 0x00000000#32) (ix2 n d)
      = ∑ j : Fin 512, a (ix2 n j) * b (ix2 j d) := by
  refine (Ideal.matmul_constant_zero_apply dot_S2048x512_S512x64_S2048x64_1_0_0_1_n_n none a b (ix2 n d)).trans ?_
  rw [← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 n d) ((contrEquiv1 dot_S2048x512_S512x64_S2048x64_1_0_0_1_n_n 512 rfl rfl).symm k) = ix2 n k := funext fun c => Fin.ext (by
    match c with
    | ⟨0, _⟩ => exact pv_lhs0 _ _
    | ⟨1, _⟩ => exact (pv_lhs1 _ _).trans hk)
  have er : dot_S2048x512_S512x64_S2048x64_1_0_0_1_n_n.rhsIdx (ix2 n d) ((contrEquiv1 dot_S2048x512_S512x64_S2048x64_1_0_0_1_n_n 512 rfl rfl).symm k) = ix2 k d := funext fun c => Fin.ext (by
    match c with
    | ⟨0, _⟩ => exact (pv_rhs0 _ _).trans hk
    | ⟨1, _⟩ => exact pv_rhs1 _ _)
  rw [el, er]

theorem lane_lift (n : Fin 2048) (k : Fin 512) : reduces_S2048x512_S2048.lift (ix1 n) k = ix2 n k :=
  funext fun c => Fin.ext (by
    match c with
    | ⟨0, _⟩ => rfl
    | ⟨1, _⟩ => rfl)

theorem laneSum_apply (p : FVec Ideal S2048x512 .f32) (n : Fin 2048) :
    multiReduction .add [1] S2048 p 0x00000000#32 reduces_S2048x512_S2048 (.inl rfl) rfl (ix1 n) = ∑ j : Fin 512, p (ix2 n j) := by
  refine (Ideal.multiReduction_add_single p 0x00000000#32 reduces_S2048x512_S2048 (.inl rfl) rfl (ix1 n)).trans ?_
  exact Finset.sum_congr rfl fun k _ => congrArg p (lane_lift n k)

theorem laneMax_apply (s : FVec Ideal S2048x512 .f32) (n : Fin 2048) :
    multiReduction .maximumf [1] S2048 s 0xFF800000#32 reduces_S2048x512_S2048 (.inl rfl) rfl (ix1 n)
      = (Finset.univ : Finset (Fin 512)).fold max (Ideal.ofBits .f32 0xFF800000#32) (fun j => s (ix2 n j)) := by
  refine (Ideal.multiReduction_maximumf_single s 0xFF800000#32 reduces_S2048x512_S2048 (.inl rfl) rfl (ix1 n)).trans ?_
  exact congrArg (fun f => (Finset.univ : Finset (Fin 512)).fold max (Ideal.ofBits .f32 0xFF800000#32) f) (funext fun k => congrArg s (lane_lift n k))

theorem toCol_apply {α : Type} (v : S2048.Idx → α) (n : Fin 2048) (u : Fin 1) :
    shapeCast S2048x1 v shapeCasts_S2048_S2048x1 (ix2 n u) = v (ix1 n) :=
  shapeCast_apply v shapeCasts_S2048_S2048x1 _ _ (by
    have hu : u.val = 0 := by omega
    rw [Shape.rowMajor_val_two, Shape.rowMajor_val_one]
    show n.val = n.val * 1 + u.val
    rw [hu, Nat.mul_one, Nat.add_zero])

theorem spread512_apply {α : Type} (v : S2048x1.Idx → α) (n : Fin 2048) (j : Fin 512) :
    broadcastTo S2048x512 v broadcasts_S2048x1_S2048x512 (ix2 n j) = v (ix2 n (0 : Fin 1)) := by
  refine broadcastTo_apply v broadcasts_S2048x1_S2048x512 (ix2 n j) (ix2 n (0 : Fin 1)) fun ax => ?_
  match ax with
  | ⟨0, _⟩ => rfl
  | ⟨1, _⟩ => rfl

theorem spread64_apply {α : Type} (v : S2048x1.Idx → α) (n : Fin 2048) (d : Fin 64) :
    broadcastTo S2048x64 v broadcasts_S2048x1_S2048x64 (ix2 n d) = v (ix2 n (0 : Fin 1)) := by
  refine broadcastTo_apply v broadcasts_S2048x1_S2048x64 (ix2 n d) (ix2 n (0 : Fin 1)) fun ax => ?_
  match ax with
  | ⟨0, _⟩ => rfl
  | ⟨1, _⟩ => rfl

def scoreV (q : FVec Ideal S2048x64 .bf16) (k : FVec Ideal S512x64 .bf16) : FVec Ideal S2048x512 .f32 :=
  matmul dot_S2048x64_S512x64_S2048x512_1_1_0_0_n_n none q k (constant S2048x512 .f32 0x00000000#32)

def maxV (q : FVec Ideal S2048x64 .bf16) (k : FVec Ideal S512x64 .bf16) (m : FVec Ideal S2048x1 .f32) : FVec Ideal S2048x1 .f32 :=
  maximumf m (shapeCast S2048x1 (multiReduction .maximumf [1] S2048 (scoreV q k) 0xFF800000#32 reduces_S2048x512_S2048 (.inl rfl) rfl) shapeCasts_S2048_S2048x1)

def rescV (q : FVec Ideal S2048x64 .bf16) (k : FVec Ideal S512x64 .bf16) (m : FVec Ideal S2048x1 .f32) : FVec Ideal S2048x1 .f32 :=
  exp (subf m (maxV q k m))

def termV (q : FVec Ideal S2048x64 .bf16) (k : FVec Ideal S512x64 .bf16) (m : FVec Ideal S2048x1 .f32) : FVec Ideal S2048x512 .f32 :=
  exp (subf (scoreV q k) (broadcastTo S2048x512 (maxV q k m) broadcasts_S2048x1_S2048x512))

def sumV (q : FVec Ideal S2048x64 .bf16) (k : FVec Ideal S512x64 .bf16) (m l : FVec Ideal S2048x1 .f32) : FVec Ideal S2048x1 .f32 :=
  addf (mulf (rescV q k m) l) (shapeCast S2048x1 (multiReduction .add [1] S2048 (termV q k m) 0x00000000#32 reduces_S2048x512_S2048 (.inl rfl) rfl) shapeCasts_S2048_S2048x1)

def accV (q : FVec Ideal S2048x64 .bf16) (k v : FVec Ideal S512x64 .bf16) (m : FVec Ideal S2048x1 .f32) (a : FVec Ideal S2048x64 .f32) : FVec Ideal S2048x64 .f32 :=
  addf (mulf (broadcastTo S2048x64 (rescV q k m) broadcasts_S2048x1_S2048x64) a)
    (matmul dot_S2048x512_S512x64_S2048x64_1_0_0_1_n_n none (truncf .bf16 (termV q k m) bitsLt_bf16_f32) v (constant S2048x64 .f32 0x00000000#32))

theorem head4_col4 (h : Fin 4) (d : Fin 64) : head4 (col4 h d) = h :=
  Fin.ext (by show (h.val * 64 + d.val) / 64 = h.val; have := d.isLt; omega)

section HeadValues

variable (Qs : Fin 2048 → Fin 256 → ℝ) (Kb Vb : Fin 512 → Fin 256 → ℝ) (Mp Lp : Fin 2048 → Fin 4 → ℝ) (Ap : Fin 2048 → Fin 256 → ℝ)
  (h : Fin 4) (q : FVec Ideal S2048x64 .bf16) (k v : FVec Ideal S512x64 .bf16) (m l : FVec Ideal S2048x1 .f32) (a : FVec Ideal S2048x64 .f32)
  (hq : ∀ n d, q (ix2 n d) = ((Qs n (col4 h d) : ℝ) : EReal)) (hk : ∀ j d, k (ix2 j d) = ((Kb j (col4 h d) : ℝ) : EReal))
  (hv : ∀ j d, v (ix2 j d) = ((Vb j (col4 h d) : ℝ) : EReal))
  (hm : ∀ n u, m (ix2 n u) = ((Mp n h : ℝ) : EReal)) (hl : ∀ n u, l (ix2 n u) = ((Lp n h : ℝ) : EReal))
  (ha : ∀ n d, a (ix2 n d) = ((Ap n (col4 h d) : ℝ) : EReal))

include hq hk in

theorem scoreV_val (n : Fin 2048) (j : Fin 512) : scoreV q k (ix2 n j) = ((score Qs Kb n h j : ℝ) : EReal) := by
  refine (qk_apply q k n j).trans ?_
  unfold score
  rw [coe_sum]
  exact Finset.sum_congr rfl fun d _ => by rw [hq n d, hk j d, EReal.coe_mul]

include hq hk hm in

theorem maxV_val (n : Fin 2048) (u : Fin 1) : maxV q k m (ix2 n u) = ((mNew Qs Kb Mp n h : ℝ) : EReal) := by
  refine (maximumf_apply _ _ _).trans ?_
  rw [hm n u]
  refine (congrArg (max ((Mp n h : ℝ) : EReal)) ((toCol_apply _ n u).trans ((laneMax_apply (scoreV q k) n).trans ?_))).trans (max_coe _ _)
  rw [negInf, show (fun j => scoreV q k (ix2 n j)) = fun j => ((score Qs Kb n h j : ℝ) : EReal) from
    funext fun j => scoreV_val Qs Kb h q k hq hk n j]
  exact fold_max_coe_eq Finset.univ Finset.univ_nonempty (score Qs Kb n h)

include hq hk hm in

theorem rescV_val (n : Fin 2048) (u : Fin 1) :
    rescV q k m (ix2 n u) = ((Real.exp (Mp n h - mNew Qs Kb Mp n h) : ℝ) : EReal) := by
  show Ideal.exp (m (ix2 n u) - maxV q k m (ix2 n u)) = _
  rw [hm n u, maxV_val Qs Kb Mp h q k m hq hk hm n u, ← EReal.coe_sub, exp_coe]

include hq hk hm in

theorem termV_val (n : Fin 2048) (j : Fin 512) :
    termV q k m (ix2 n j) = ((Real.exp (score Qs Kb n h j - mNew Qs Kb Mp n h) : ℝ) : EReal) := by
  show Ideal.exp (scoreV q k (ix2 n j) - broadcastTo S2048x512 (maxV q k m) broadcasts_S2048x1_S2048x512 (ix2 n j)) = _
  rw [spread512_apply (maxV q k m) n j, scoreV_val Qs Kb h q k hq hk n j, maxV_val Qs Kb Mp h q k m hq hk hm n 0,
    ← EReal.coe_sub, exp_coe]

include hq hk hm hl in

theorem sumV_val (n : Fin 2048) (u : Fin 1) : sumV q k m l (ix2 n u) = ((lNew Qs Kb Mp Lp n h : ℝ) : EReal) := by
  show rescV q k m (ix2 n u) * l (ix2 n u)
      + shapeCast S2048x1 (multiReduction .add [1] S2048 (termV q k m) 0x00000000#32 reduces_S2048x512_S2048 (.inl rfl) rfl) shapeCasts_S2048_S2048x1 (ix2 n u) = _
  rw [rescV_val Qs Kb Mp h q k m hq hk hm n u, hl n u, toCol_apply _ n u, laneSum_apply (termV q k m) n]
  unfold lNew
  rw [EReal.coe_add, EReal.coe_mul, coe_sum]
  exact congrArg _ (Finset.sum_congr rfl fun j _ => termV_val Qs Kb Mp h q k m hq hk hm n j)

include hq hk hv hm ha in

theorem accV_val (n : Fin 2048) (d : Fin 64) : accV q k v m a (ix2 n d) = ((aNew Qs Kb Vb Mp Ap n (col4 h d) : ℝ) : EReal) := by
  show broadcastTo S2048x64 (rescV q k m) broadcasts_S2048x1_S2048x64 (ix2 n d) * a (ix2 n d)
      + matmul dot_S2048x512_S512x64_S2048x64_1_0_0_1_n_n none (truncf .bf16 (termV q k m) bitsLt_bf16_f32) v (constant S2048x64 .f32 0x00000000#32) (ix2 n d) = _
  rw [spread64_apply (rescV q k m) n d, rescV_val Qs Kb Mp h q k m hq hk hm n 0, ha n d, pv_apply _ v n d]
  unfold aNew
  rw [head4_col4, EReal.coe_add, EReal.coe_mul, coe_sum]
  refine congrArg _ (Finset.sum_congr rfl fun j _ => ?_)
  show termV q k m (ix2 n j) * v (ix2 j d) = _
  rw [termV_val Qs Kb Mp h q k m hq hk hm n j, hv j d, EReal.coe_mul]

end HeadValues

abbrev qSl (o : Nat) (hsl : S2048x256.Slices ![0, o] S2048x64) (v3 : Vec Ideal S1x2048x256 .bf16) : FVec Ideal S2048x64 .bf16 :=
  extractStridedSlice S2048x64 ![0, o] (shapeCast S2048x256 v3 shapeCasts_S1x2048x256_S2048x256) hsl
abbrev kSl (o : Nat) (hsl : S512x256.Slices ![0, o] S512x64) (v5 : Vec Ideal S1x512x256 .bf16) : FVec Ideal S512x64 .bf16 :=
  extractStridedSlice S512x64 ![0, o] (shapeCast S512x256 v5 shapeCasts_S1x512x256_S512x256) hsl

theorem qSl_val (Qs : Fin 2048 → Fin 256 → ℝ) (k : Fin 4) (o : Nat) (ho : o = k.val * 64) (hsl : S2048x256.Slices ![0, o] S2048x64)
    (v3 : Vec Ideal S1x2048x256 .bf16) (hv3 : ∀ n e, v3 (ix3 (0 : Fin 1) n e) = ((Qs n e : ℝ) : EReal)) (n : Fin 2048) (d : Fin 64) :
    qSl o hsl v3 (ix2 n d) = ((Qs n (col4 k d) : ℝ) : EReal) := by
  refine (slice2_axis1_apply o _ hsl n d (col4 k d) (by show k.val * 64 + d.val = o + d.val; omega)).trans ?_
  exact (shapeCast_1ab_ab_apply v3 shapeCasts_S1x2048x256_S2048x256 n (col4 k d)).trans (hv3 n (col4 k d))

theorem kSl_val (Kb : Fin 512 → Fin 256 → ℝ) (k : Fin 4) (o : Nat) (ho : o = k.val * 64) (hsl : S512x256.Slices ![0, o] S512x64)
    (v5 : Vec Ideal S1x512x256 .bf16) (hv5 : ∀ j e, v5 (ix3 (0 : Fin 1) j e) = ((Kb j e : ℝ) : EReal)) (j : Fin 512) (d : Fin 64) :
    kSl o hsl v5 (ix2 j d) = ((Kb j (col4 k d) : ℝ) : EReal) := by
  refine (slice2_axis1_apply o _ hsl j d (col4 k d) (by show k.val * 64 + d.val = o + d.val; omega)).trans ?_
  exact (shapeCast_1ab_ab_apply v5 shapeCasts_S1x512x256_S512x256 j (col4 k d)).trans (hv5 j (col4 k d))

section Payloads

variable (v3 : Vec Ideal S1x2048x256 .bf16) (v5 v7 : Vec Ideal S1x512x256 .bf16) (m l : Vec Ideal S2048x1 .f32) (a : Vec Ideal S2048x64 .f32)

theorem payM0 : k1_pay17 (k1_pay11 v3 v5 m) = maxV (qSl 0 slices_S2048x256_o0_0_S2048x64 v3) (kSl 0 slices_S512x256_o0_0_S512x64 v5) m :=
  shapeCast_self _ _
theorem payL0 : k1_pay14 v3 v5 m l = sumV (qSl 0 slices_S2048x256_o0_0_S2048x64 v3) (kSl 0 slices_S512x256_o0_0_S512x64 v5) m l :=
  shapeCast_self _ _
theorem payA0 : k1_pay16 (k1_pay9 v7) (k1_pay13 v3 v5 m) (k1_pay15 v3 v5 m a)
    = accV (qSl 0 slices_S2048x256_o0_0_S2048x64 v3) (kSl 0 slices_S512x256_o0_0_S512x64 v5) (kSl 0 slices_S512x256_o0_0_S512x64 v7) m a :=
  shapeCast_self _ _

theorem payM1 : k1_pay25 (k1_pay19 (k1_pay6 v3) (k1_pay7 v5) m) = maxV (qSl 64 slices_S2048x256_o0_64_S2048x64 v3) (kSl 64 slices_S512x256_o0_64_S512x64 v5) m :=
  shapeCast_self _ _
theorem payL1 : k1_pay22 (k1_pay6 v3) (k1_pay7 v5) m l = sumV (qSl 64 slices_S2048x256_o0_64_S2048x64 v3) (kSl 64 slices_S512x256_o0_64_S512x64 v5) m l :=
  shapeCast_self _ _
theorem payA1 : k1_pay24 (k1_pay23 (k1_pay6 v3) (k1_pay7 v5) (k1_pay8 v7) m a)
    = accV (qSl 64 slices_S2048x256_o0_64_S2048x64 v3) (kSl 64 slices_S512x256_o0_64_S512x64 v5) (kSl 64 slices_S512x256_o0_64_S512x64 v7) m a :=
  shapeCast_self _ _

theorem payM2 : k1_pay32 (k1_pay6 v3) (k1_pay7 v5) m = maxV (qSl 128 slices_S2048x256_o0_128_S2048x64 v3) (kSl 128 slices_S512x256_o0_128_S512x64 v5) m :=
  shapeCast_self _ _
theorem payL2 : k1_pay30 (k1_pay6 v3) (k1_pay7 v5) m l = sumV (qSl 128 slices_S2048x256_o0_128_S2048x64 v3) (kSl 128 slices_S512x256_o0_128_S512x64 v5) m l :=
  shapeCast_self _ _
theorem payA2 : k1_pay31 (k1_pay6 v3) (k1_pay7 v5) (k1_pay8 v7) m a
    = accV (qSl 128 slices_S2048x256_o0_128_S2048x64 v3) (kSl 128 slices_S512x256_o0_128_S512x64 v5) (kSl 128 slices_S512x256_o0_128_S512x64 v7) m a :=
  shapeCast_self _ _

theorem payM3 : k1_pay39 (k1_pay6 v3) (k1_pay7 v5) m = maxV (qSl 192 slices_S2048x256_o0_192_S2048x64 v3) (kSl 192 slices_S512x256_o0_192_S512x64 v5) m :=
  shapeCast_self _ _
theorem payL3 : k1_pay37 (k1_pay6 v3) (k1_pay7 v5) m l = sumV (qSl 192 slices_S2048x256_o0_192_S2048x64 v3) (kSl 192 slices_S512x256_o0_192_S512x64 v5) m l :=
  shapeCast_self _ _
theorem payA3 : k1_pay38 (k1_pay6 v3) (k1_pay7 v5) (k1_pay8 v7) m a
    = accV (qSl 192 slices_S2048x256_o0_192_S2048x64 v3) (kSl 192 slices_S512x256_o0_192_S512x64 v5) (kSl 192 slices_S512x256_o0_192_S512x64 v7) m a :=
  shapeCast_self _ _

end Payloads

theorem zeros2 : (![0, 0] : Fin 2 → Nat) = fun _ => 0 := funext fun a => by
  match a with
  | ⟨0, _⟩ => rfl
  | ⟨1, _⟩ => rfl
theorem zeros3 : (![0, 0, 0] : Fin 3 → Nat) = fun _ => 0 := funext fun a => by
  match a with
  | ⟨0, _⟩ => rfl
  | ⟨1, _⟩ => rfl
  | ⟨2, _⟩ => rfl

theorem emb_col (k : Nat) (inb : ∀ a, (![0, k] : Fin 2 → Nat) a + S2048x1.size a ≤ S2048x4.size a) (r : Fin 2048) (u : Fin 1)
    (k' : Fin 4) (hk : k'.val = k) :
    (Rect.unit (s := S2048x4) ![0, k] S2048x1.size inb).emb (ix2 r u) = ix2 r k' :=
  funext fun c => Fin.ext (by
    have := u.isLt
    match c with
    | ⟨0, _⟩ => show 0 + 1 * r.val = r.val; omega
    | ⟨1, _⟩ => show k + 1 * u.val = k'.val; omega)

theorem emb_acc (o : Nat) (inb : ∀ a, (![0, o] : Fin 2 → Nat) a + S2048x64.size a ≤ S2048x256.size a) (r : Fin 2048) (d : Fin 64)
    (k' : Fin 4) (ho : o = k'.val * 64) :
    (Rect.unit (s := S2048x256) ![0, o] S2048x64.size inb).emb (ix2 r d) = ix2 r (col4 k' d) :=
  funext fun c => Fin.ext (by
    match c with
    | ⟨0, _⟩ => show 0 + 1 * r.val = r.val; omega
    | ⟨1, _⟩ => show o + 1 * d.val = k'.val * 64 + d.val; omega)

theorem loadQ_apply (M : Memref sig .tc .vmem S1x2048x256 .bf16) (hM : M.IsWhole) (x : Vec Ideal S1x2048x256 .bf16) :
    View.readAt (Elt Ideal) M.view (Rect.unit (s := S1x2048x256) ![0, 0, 0] S1x2048x256.size inb_S1x2048x256_S1x2048x256_0_0_0).toLoadRect (hM.unread x) = x := by
  rw [View.readAt_eq_ld, hM.read_unread, View.ld_unit_zero (S := S1x2048x256) zeros3]

theorem loadK_apply (M : Memref sig .tc .vmem S1x512x256 .bf16) (hM : M.IsWhole) (x : Vec Ideal S1x512x256 .bf16) :
    View.readAt (Elt Ideal) M.view (Rect.unit (s := S1x512x256) ![0, 0, 0] S1x512x256.size inb_S1x512x256_S1x512x256_0_0_0).toLoadRect (hM.unread x) = x := by
  rw [View.readAt_eq_ld, hM.read_unread, View.ld_unit_zero (S := S1x512x256) zeros3]

theorem col4_head_lane (e : Fin 256) : col4 (head4 e) (lane4 e) = e :=
  Fin.ext (by show e.val / 64 * 64 + e.val % 64 = e.val; omega)

theorem readCol_apply (M : Memref sig .tc .vmem S2048x4 .f32) (L : List (View.Piece (Elt Ideal) S2048x4 .f32)) (k : Nat)
    (inb : ∀ a, (![0, k] : Fin 2 → Nat) a + S2048x1.size a ≤ S2048x4.size a) (k' : Fin 4) (hk : k'.val = k) (n : Fin 2048) (u : Fin 1) :
    M.view.readCov L (Rect.unit (s := S2048x4) ![0, k] S2048x1.size inb).toLoadRect (ix2 n u) = View.canon L (ix2 n k') := by
  rw [View.readCov_eq_canon']
  exact congrArg (View.canon L) (emb_col k inb n u k' hk)

theorem readAcc_apply (M : Memref sig .tc .vmem S2048x256 .f32) (L : List (View.Piece (Elt Ideal) S2048x256 .f32)) (o : Nat)
    (inb : ∀ a, (![0, o] : Fin 2 → Nat) a + S2048x64.size a ≤ S2048x256.size a) (k' : Fin 4) (ho : o = k'.val * 64) (n : Fin 2048) (d : Fin 64) :
    M.view.readCov L (Rect.unit (s := S2048x256) ![0, o] S2048x64.size inb).toLoadRect (ix2 n d) = View.canon L (ix2 n (col4 k' d)) := by
  rw [View.readCov_eq_canon']
  exact congrArg (View.canon L) (emb_acc o inb n d k' ho)

section Stored

variable {Qs : Fin 2048 → Fin 256 → ℝ} {Kb Vb : Fin 512 → Fin 256 → ℝ} {Mp Lp : Fin 2048 → Fin 4 → ℝ} {Ap : Fin 2048 → Fin 256 → ℝ}
  {Q : Vec Ideal S1x2048x256 .bf16} {K W : Vec Ideal S1x512x256 .bf16} (k : Fin 4) (o : ℕ) (ho : o = k.val * 64)
  {hq : S2048x256.Slices ![0, o] S2048x64} {hk hw : S512x256.Slices ![0, o] S512x64}
  (hQ : ∀ n e, Q (ix3 (0 : Fin 1) n e) = ((Qs n e : ℝ) : EReal)) (hK : ∀ j e, K (ix3 (0 : Fin 1) j e) = ((Kb j e : ℝ) : EReal))
  (hW : ∀ j e, W (ix3 (0 : Fin 1) j e) = ((Vb j e : ℝ) : EReal)) {m l : Vec Ideal S2048x1 .f32} {a : Vec Ideal S2048x64 .f32}

include ho hQ hK in
/-- A stored maximum column of head k, however its payload is spelled. -/
theorem payM_val {pay : Vec Ideal S2048x1 .f32} (hp : pay = maxV (qSl o hq Q) (kSl o hk K) m)
    (hm : ∀ n u, m (ix2 n u) = ((Mp n k : ℝ) : EReal)) (n : Fin 2048) (u : Fin 1) :
    pay (ix2 n u) = ((mNew Qs Kb Mp n k : ℝ) : EReal) :=
  (congrFun hp _).trans (maxV_val Qs Kb Mp k _ _ m (qSl_val Qs k o ho hq Q hQ) (kSl_val Kb k o ho hk K hK) hm n u)

include ho hQ hK in
theorem payL_val {pay : Vec Ideal S2048x1 .f32} (hp : pay = sumV (qSl o hq Q) (kSl o hk K) m l)
    (hm : ∀ n u, m (ix2 n u) = ((Mp n k : ℝ) : EReal)) (hl : ∀ n u, l (ix2 n u) = ((Lp n k : ℝ) : EReal)) (n : Fin 2048) (u : Fin 1) :
    pay (ix2 n u) = ((lNew Qs Kb Mp Lp n k : ℝ) : EReal) :=
  (congrFun hp _).trans (sumV_val Qs Kb Mp Lp k _ _ m l (qSl_val Qs k o ho hq Q hQ) (kSl_val Kb k o ho hk K hK) hm hl n u)

include ho hQ hK hW in
theorem payA_val {pay : Vec Ideal S2048x64 .f32} (hp : pay = accV (qSl o hq Q) (kSl o hk K) (kSl o hw W) m a)
    (hm : ∀ n u, m (ix2 n u) = ((Mp n k : ℝ) : EReal)) (ha : ∀ n d, a (ix2 n d) = ((Ap n (col4 k d) : ℝ) : EReal)) (n : Fin 2048) (d : Fin 64) :
    pay (ix2 n d) = ((aNew Qs Kb Vb Mp Ap n (col4 k d) : ℝ) : EReal) :=
  (congrFun hp _).trans (accV_val Qs Kb Vb Mp Ap k _ _ _ m a (qSl_val Qs k o ho hq Q hQ) (kSl_val Kb k o ho hk K hK) (kSl_val Vb k o ho hw W hW) hm ha n d)

end Stored

theorem loadQ_val (M : Memref sig .tc .vmem S1x2048x256 .bf16) (hM : M.IsWhole) (x : Vec Ideal S1x2048x256 .bf16) (X : Fin 2048 → Fin 256 → ℝ)
    (hX : ∀ n e, x (ix3 (0 : Fin 1) n e) = ((X n e : ℝ) : EReal)) (n : Fin 2048) (e : Fin 256) :
    View.readAt (Elt Ideal) M.view (Rect.unit (s := S1x2048x256) ![0, 0, 0] S1x2048x256.size inb_S1x2048x256_S1x2048x256_0_0_0).toLoadRect (hM.unread x) (ix3 (0 : Fin 1) n e)
      = ((X n e : ℝ) : EReal) := by
  rw [loadQ_apply]; exact hX n e

theorem loadK_val (M : Memref sig .tc .vmem S1x512x256 .bf16) (hM : M.IsWhole) (x : Vec Ideal S1x512x256 .bf16) (X : Fin 512 → Fin 256 → ℝ)
    (hX : ∀ j e, x (ix3 (0 : Fin 1) j e) = ((X j e : ℝ) : EReal)) (j : Fin 512) (e : Fin 256) :
    View.readAt (Elt Ideal) M.view (Rect.unit (s := S1x512x256) ![0, 0, 0] S1x512x256.size inb_S1x512x256_S1x512x256_0_0_0).toLoadRect (hM.unread x) (ix3 (0 : Fin 1) j e)
      = ((X j e : ℝ) : EReal) := by
  rw [loadK_apply]; exact hX j e

theorem loadCol_val (M : Memref sig .tc .vmem S2048x4 .f32) (hM : M.IsWhole) (x : Vec Ideal S2048x4 .f32) (X : Fin 2048 → Fin 4 → ℝ)
    (hX : ∀ n h, x (ix2 n h) = ((X n h : ℝ) : EReal)) (k : Nat) (inb : ∀ a, (![0, k] : Fin 2 → Nat) a + S2048x1.size a ≤ S2048x4.size a)
    (k' : Fin 4) (hk : k'.val = k) (n : Fin 2048) (u : Fin 1) :
    View.readAt (Elt Ideal) M.view (Rect.unit (s := S2048x4) ![0, k] S2048x1.size inb).toLoadRect (hM.unread x) (ix2 n u) = ((X n k' : ℝ) : EReal) := by
  rw [View.readAt_apply, hM.read_unread]
  exact (congrArg x (emb_col k inb n u k' hk)).trans (hX n k')

theorem loadAcc_val (M : Memref sig .tc .vmem S2048x256 .f32) (hM : M.IsWhole) (x : Vec Ideal S2048x256 .f32) (X : Fin 2048 → Fin 256 → ℝ)
    (hX : ∀ n e, x (ix2 n e) = ((X n e : ℝ) : EReal)) (o : Nat) (inb : ∀ a, (![0, o] : Fin 2 → Nat) a + S2048x64.size a ≤ S2048x256.size a)
    (k' : Fin 4) (ho : o = k'.val * 64) (n : Fin 2048) (d : Fin 64) :
    View.readAt (Elt Ideal) M.view (Rect.unit (s := S2048x256) ![0, o] S2048x64.size inb).toLoadRect (hM.unread x) (ix2 n d) = ((X n (col4 k' d) : ℝ) : EReal) := by
  rw [View.readAt_apply, hM.read_unread]
  exact (congrArg x (emb_acc o inb n d k' ho)).trans (hX n (col4 k' d))

/-- A real array over (row, head), and one over (row, column), as functions of a buffer's index. -/
def gCol (Y : Fin 2048 → Fin 4 → ℝ) (y : S2048x4.Idx) : EReal := ((Y ⟨(y 0).val, idx2_lt0 y⟩ ⟨(y 1).val, idx2_lt1 y⟩ : ℝ) : EReal)
def gAcc (Y : Fin 2048 → Fin 256 → ℝ) (y : S2048x256.Idx) : EReal := ((Y ⟨(y 0).val, idx2_lt0 y⟩ ⟨(y 1).val, idx2_lt1 y⟩ : ℝ) : EReal)

/-- A stored column whose payload is head k' of `Y` agrees with `Y` where its rectangle puts it. -/
theorem colPiece {Y : Fin 2048 → Fin 4 → ℝ} (k' : Fin 4) (k : ℕ) (hk : k'.val = k) (inb : ∀ a, (![0, k] : Fin 2 → Nat) a + S2048x1.size a ≤ S2048x4.size a)
    {pay : Vec Ideal S2048x1 .f32} (hp : ∀ n u, pay (ix2 n u) = ((Y n k' : ℝ) : EReal)) (x : S2048x1.Idx) :
    pay x = gCol Y ((Rect.unit (s := S2048x4) ![0, k] S2048x1.size inb).emb x) := by
  obtain ⟨r, u, rfl⟩ : ∃ (r : Fin 2048) (u : Fin 1), x = ix2 r u := ⟨x 0, x 1, eq_ix2 x⟩
  rw [emb_col k inb r u k' hk]
  exact hp r u

theorem accPiece {Y : Fin 2048 → Fin 256 → ℝ} (k' : Fin 4) (o : ℕ) (ho : o = k'.val * 64) (inb : ∀ a, (![0, o] : Fin 2 → Nat) a + S2048x64.size a ≤ S2048x256.size a)
    {pay : Vec Ideal S2048x64 .f32} (hp : ∀ n d, pay (ix2 n d) = ((Y n (col4 k' d) : ℝ) : EReal)) (x : S2048x64.Idx) :
    pay x = gAcc Y ((Rect.unit (s := S2048x256) ![0, o] S2048x64.size inb).emb x) := by
  obtain ⟨r, d, rfl⟩ : ∃ (r : Fin 2048) (d : Fin 64), x = ix2 r d := ⟨x 0, x 1, eq_ix2 x⟩
  rw [emb_acc o inb r d k' ho]
  exact hp r d

/-- Four pieces that each agree with one function of the index read back as that function. -/
theorem canon4 {S : Shape} {φ : EltTy} {p0 p1 p2 p3 : View.Piece (Elt Ideal) S φ} {y : S.Idx}
    (hc : ∃ pc ∈ [p0, p1, p2, p3], y ∈ pc.1.set) (g : S.Idx → Elt Ideal φ)
    (h0 : ∀ x, p0.2 x = g (p0.1.emb x)) (h1 : ∀ x, p1.2 x = g (p1.1.emb x)) (h2 : ∀ x, p2.2 x = g (p2.1.emb x)) (h3 : ∀ x, p3.2 x = g (p3.1.emb x)) :
    View.canon [p0, p1, p2, p3] y = g y :=
  View.canon_apply_of_pieces g _ (List.forall_mem_cons.mpr ⟨h0, List.forall_mem_cons.mpr ⟨h1, List.forall_mem_cons.mpr ⟨h2, List.forall_mem_cons.mpr ⟨h3, fun _ hh => absurd hh List.not_mem_nil⟩⟩⟩⟩) y hc

end Cert.KernelIdeal.Hand.Head

end
-- ==== Proof.KI.R1PieceA.lean ====
/- At a first key block the four carried arrays are the one-block update from (sentinel, 0, 0) of the queries times 1/8. -/
import proofs.«401092_j26680336843340_3_alg».proof.Proof.KI.R1Head

set_option maxRecDepth 16384

noncomputable section

namespace Cert.KernelIdeal.Hand

open Idealize.ShloMosaic Idealize.ShloMosaic.TcCoe Idealize.ShloMosaic.Tactic Idealize.ShloMosaic.ValueIdx
open Cert.KernelIdeal Cert.KernelIdeal.Gen Cert.BlockSpec

namespace PieceA

open Head Cert.FlashMath

theorem canon_col_hit (k : Nat) (inb : ∀ a, (![0, k] : Fin 2 → Nat) a + S2048x1.size a ≤ S2048x4.size a) (w : Vec Ideal S2048x1 .f32)
    (L : List (View.Piece (Elt Ideal) S2048x4 .f32)) (n : Fin 2048) (h : Fin 4) (hk : h.val = k) :
    View.canon ((⟨Rect.unit (s := S2048x4) ![0, k] S2048x1.size inb, w⟩ : View.Piece (Elt Ideal) S2048x4 .f32) :: L) (ix2 n h)
      = w (ix2 n (0 : Fin 1)) := by
  rw [← emb_col k inb n 0 h hk]
  exact View.canon_cons_emb (Rect.unit (s := S2048x4) ![0, k] S2048x1.size inb) w L _

theorem canon_col_miss (k : Nat) (inb : ∀ a, (![0, k] : Fin 2 → Nat) a + S2048x1.size a ≤ S2048x4.size a) (w : Vec Ideal S2048x1 .f32)
    (L : List (View.Piece (Elt Ideal) S2048x4 .f32)) (n : Fin 2048) (h : Fin 4) (hk : h.val ≠ k) :
    View.canon ((⟨Rect.unit (s := S2048x4) ![0, k] S2048x1.size inb, w⟩ : View.Piece (Elt Ideal) S2048x4 .f32) :: L) (ix2 n h)
      = View.canon L (ix2 n h) := by
  refine View.canon_cons_of_not_mem _ L ?_
  rw [Rect.mem_set_unit]
  intro hall
  have h1 := hall 1
  have e1 : ((ix2 n h : S2048x4.Idx) 1).val = h.val := rfl
  have o1 : (![0, k] : Fin 2 → Nat) 1 = k := rfl
  have s1 : S2048x1.size 1 = 1 := rfl
  rw [o1, s1] at h1
  omega

theorem canon_acc_hit (o : Nat) (inb : ∀ a, (![0, o] : Fin 2 → Nat) a + S2048x64.size a ≤ S2048x256.size a) (w : Vec Ideal S2048x64 .f32)
    (L : List (View.Piece (Elt Ideal) S2048x256 .f32)) (n : Fin 2048) (k' : Fin 4) (d : Fin 64) (ho : o = k'.val * 64) :
    View.canon ((⟨Rect.unit (s := S2048x256) ![0, o] S2048x64.size inb, w⟩ : View.Piece (Elt Ideal) S2048x256 .f32) :: L) (ix2 n (col4 k' d))
      = w (ix2 n d) := by
  rw [← emb_acc o inb n d k' ho]
  exact View.canon_cons_emb (Rect.unit (s := S2048x256) ![0, o] S2048x64.size inb) w L _

theorem canon_acc_miss (o : Nat) (inb : ∀ a, (![0, o] : Fin 2 → Nat) a + S2048x64.size a ≤ S2048x256.size a) (w : Vec Ideal S2048x64 .f32)
    (L : List (View.Piece (Elt Ideal) S2048x256 .f32)) (n : Fin 2048) (e : Fin 256) (he : e.val < o ∨ o + 64 ≤ e.val) :
    View.canon ((⟨Rect.unit (s := S2048x256) ![0, o] S2048x64.size inb, w⟩ : View.Piece (Elt Ideal) S2048x256 .f32) :: L) (ix2 n e)
      = View.canon L (ix2 n e) := by
  refine View.canon_cons_of_not_mem _ L ?_
  rw [Rect.mem_set_unit]
  intro hall
  have h1 := hall 1
  have e1 : ((ix2 n e : S2048x256.Idx) 1).val = e.val := rfl
  have o1 : (![0, o] : Fin 2 → Nat) 1 = o := rfl
  have s1 : S2048x64.size 1 = 64 := rfl
  rw [o1, s1] at h1
  omega

theorem readCol0 (M : Memref sig .tc .vmem S2048x4 .f32)  (R : Vec Ideal S2048x4 .f32)  (inbW : ∀ a, (![0, 0] : Fin 2 → Nat) a + S2048x4.size a ≤ S2048x4.size a)
    (inbK : ∀ a, (![0, 0] : Fin 2 → Nat) a + S2048x1.size a ≤ S2048x4.size a) (n : Fin 2048) (u : Fin 1) :
    M.view.readCov [(⟨Rect.unit (s := S2048x4) ![0, 0] S2048x4.size inbW, R⟩ : View.Piece (Elt Ideal) S2048x4 .f32)] (Rect.unit (s := S2048x4) ![0, 0] S2048x1.size inbK).toLoadRect (ix2 n u) = R (ix2 n ⟨0, by decide⟩) := by
  rw [readCol_apply M _ 0 inbK ⟨0, by decide⟩ rfl n u, View.canon_unit_zero zeros2]

theorem readCol1 (M : Memref sig .tc .vmem S2048x4 .f32) (P0 : Vec Ideal S2048x1 .f32) (R : Vec Ideal S2048x4 .f32) (inb0 : ∀ a, (![0, 0] : Fin 2 → Nat) a + S2048x1.size a ≤ S2048x4.size a) (inbW : ∀ a, (![0, 0] : Fin 2 → Nat) a + S2048x4.size a ≤ S2048x4.size a)
    (inbK : ∀ a, (![0, 1] : Fin 2 → Nat) a + S2048x1.size a ≤ S2048x4.size a) (n : Fin 2048) (u : Fin 1) :
    M.view.readCov [(⟨Rect.unit (s := S2048x4) ![0, 0] S2048x1.size inb0, P0⟩ : View.Piece (Elt Ideal) S2048x4 .f32), (⟨Rect.unit (s := S2048x4) ![0, 0] S2048x4.size inbW, R⟩ : View.Piece (Elt Ideal) S2048x4 .f32)] (Rect.unit (s := S2048x4) ![0, 1] S2048x1.size inbK).toLoadRect (ix2 n u) = R (ix2 n ⟨1, by decide⟩) := by
  rw [readCol_apply M _ 1 inbK ⟨1, by decide⟩ rfl n u, canon_col_miss 0 inb0 P0 _ n ⟨1, by decide⟩ (by decide), View.canon_unit_zero zeros2]

theorem readCol2 (M : Memref sig .tc .vmem S2048x4 .f32) (P0 : Vec Ideal S2048x1 .f32) (P1 : Vec Ideal S2048x1 .f32) (R : Vec Ideal S2048x4 .f32) (inb0 : ∀ a, (![0, 0] : Fin 2 → Nat) a + S2048x1.size a ≤ S2048x4.size a) (inb1 : ∀ a, (![0, 1] : Fin 2 → Nat) a + S2048x1.size a ≤ S2048x4.size a) (inbW : ∀ a, (![0, 0] : Fin 2 → Nat) a + S2048x4.size a ≤ S2048x4.size a)
    (inbK : ∀ a, (![0, 2] : Fin 2 → Nat) a + S2048x1.size a ≤ S2048x4.size a) (n : Fin 2048) (u : Fin 1) :
    M.view.readCov [(⟨Rect.unit (s := S2048x4) ![0, 1] S2048x1.size inb1, P1⟩ : View.Piece (Elt Ideal) S2048x4 .f32), (⟨Rect.unit (s := S2048x4) ![0, 0] S2048x1.size inb0, P0⟩ : View.Piece (Elt Ideal) S2048x4 .f32), (⟨Rect.unit (s := S2048x4) ![0, 0] S2048x4.size inbW, R⟩ : View.Piece (Elt Ideal) S2048x4 .f32)] (Rect.unit (s := S2048x4) ![0, 2] S2048x1.size inbK).toLoadRect (ix2 n u) = R (ix2 n ⟨2, by decide⟩) := by
  rw [readCol_apply M _ 2 inbK ⟨2, by decide⟩ rfl n u, canon_col_miss 1 inb1 P1 _ n ⟨2, by decide⟩ (by decide), canon_col_miss 0 inb0 P0 _ n ⟨2, by decide⟩ (by decide), View.canon_unit_zero zeros2]

theorem readCol3 (M : Memref sig .tc .vmem S2048x4 .f32) (P0 : Vec Ideal S2048x1 .f32) (P1 : Vec Ideal S2048x1 .f32) (P2 : Vec Ideal S2048x1 .f32) (R : Vec Ideal S2048x4 .f32) (inb0 : ∀ a, (![0, 0] : Fin 2 → Nat) a + S2048x1.size a ≤ S2048x4.size a) (inb1 : ∀ a, (![0, 1] : Fin 2 → Nat) a + S2048x1.size a ≤ S2048x4.size a) (inb2 : ∀ a, (![0, 2] : Fin 2 → Nat) a + S2048x1.size a ≤ S2048x4.size a) (inbW : ∀ a, (![0, 0] : Fin 2 → Nat) a + S2048x4.size a ≤ S2048x4.size a)
    (inbK : ∀ a, (![0, 3] : Fin 2 → Nat) a + S2048x1.size a ≤ S2048x4.size a) (n : Fin 2048) (u : Fin 1) :
    M.view.readCov [(⟨Rect.unit (s := S2048x4) ![0, 2] S2048x1.size inb2, P2⟩ : View.Piece (Elt Ideal) S2048x4 .f32), (⟨Rect.unit (s := S2048x4) ![0, 1] S2048x1.size inb1, P1⟩ : View.Piece (Elt Ideal) S2048x4 .f32), (⟨Rect.unit (s := S2048x4) ![0, 0] S2048x1.size inb0, P0⟩ : View.Piece (Elt Ideal) S2048x4 .f32), (⟨Rect.unit (s := S2048x4) ![0, 0] S2048x4.size inbW, R⟩ : View.Piece (Elt Ideal) S2048x4 .f32)] (Rect.unit (s := S2048x4) ![0, 3] S2048x1.size inbK).toLoadRect (ix2 n u) = R (ix2 n ⟨3, by decide⟩) := by
  rw [readCol_apply M _ 3 inbK ⟨3, by decide⟩ rfl n u, canon_col_miss 2 inb2 P2 _ n ⟨3, by decide⟩ (by decide), canon_col_miss 1 inb1 P1 _ n ⟨3, by decide⟩ (by decide), canon_col_miss 0 inb0 P0 _ n ⟨3, by decide⟩ (by decide), View.canon_unit_zero zeros2]

theorem readAcc0 (M : Memref sig .tc .vmem S2048x256 .f32)  (R : Vec Ideal S2048x256 .f32)  (inbW : ∀ a, (![0, 0] : Fin 2 → Nat) a + S2048x256.size a ≤ S2048x256.size a)
    (inbK : ∀ a, (![0, 0] : Fin 2 → Nat) a + S2048x64.size a ≤ S2048x256.size a) (n : Fin 2048) (d : Fin 64) :
    M.view.readCov [(⟨Rect.unit (s := S2048x256) ![0, 0] S2048x256.size inbW, R⟩ : View.Piece (Elt Ideal) S2048x256 .f32)] (Rect.unit (s := S2048x256) ![0, 0] S2048x64.size inbK).toLoadRect (ix2 n d) = R (ix2 n (col4 ⟨0, by decide⟩ d)) := by
  rw [readAcc_apply M _ 0 inbK ⟨0, by decide⟩ rfl n d, View.canon_unit_zero zeros2]

theorem readAcc1 (M : Memref sig .tc .vmem S2048x256 .f32) (P0 : Vec Ideal S2048x64 .f32) (R : Vec Ideal S2048x256 .f32) (inb0 : ∀ a, (![0, 0] : Fin 2 → Nat) a + S2048x64.size a ≤ S2048x256.size a) (inbW : ∀ a, (![0, 0] : Fin 2 → Nat) a + S2048x256.size a ≤ S2048x256.size a)
    (inbK : ∀ a, (![0, 64] : Fin 2 → Nat) a + S2048x64.size a ≤ S2048x256.size a) (n : Fin 2048) (d : Fin 64) :
    M.view.readCov [(⟨Rect.unit (s := S2048x256) ![0, 0] S2048x64.size inb0, P0⟩ : View.Piece (Elt Ideal) S2048x256 .f32), (⟨Rect.unit (s := S2048x256) ![0, 0] S2048x256.size inbW, R⟩ : View.Piece (Elt Ideal) S2048x256 .f32)] (Rect.unit (s := S2048x256) ![0, 64] S2048x64.size inbK).toLoadRect (ix2 n d) = R (ix2 n (col4 ⟨1, by decide⟩ d)) := by
  rw [readAcc_apply M _ 64 inbK ⟨1, by decide⟩ rfl n d, canon_acc_miss 0 inb0 P0 _ n (col4 ⟨1, by decide⟩ d) (Or.inr (by show 0 + 64 ≤ 1 * 64 + d.val; omega)), View.canon_unit_zero zeros2]

theorem readAcc2 (M : Memref sig .tc .vmem S2048x256 .f32) (P0 : Vec Ideal S2048x64 .f32) (P1 : Vec Ideal S2048x64 .f32) (R : Vec Ideal S2048x256 .f32) (inb0 : ∀ a, (![0, 0] : Fin 2 → Nat) a + S2048x64.size a ≤ S2048x256.size a) (inb1 : ∀ a, (![0, 64] : Fin 2 → Nat) a + S2048x64.size a ≤ S2048x256.size a) (inbW : ∀ a, (![0, 0] : Fin 2 → Nat) a + S2048x256.size a ≤ S2048x256.size a)
    (inbK : ∀ a, (![0, 128] : Fin 2 → Nat) a + S2048x64.size a ≤ S2048x256.size a) (n : Fin 2048) (d : Fin 64) :
    M.view.readCov [(⟨Rect.unit (s := S2048x256) ![0, 64] S2048x64.size inb1, P1⟩ : View.Piece (Elt Ideal) S2048x256 .f32), (⟨Rect.unit (s := S2048x256) ![0, 0] S2048x64.size inb0, P0⟩ : View.Piece (Elt Ideal) S2048x256 .f32), (⟨Rect.unit (s := S2048x256) ![0, 0] S2048x256.size inbW, R⟩ : View.Piece (Elt Ideal) S2048x256 .f32)] (Rect.unit (s := S2048x256) ![0, 128] S2048x64.size inbK).toLoadRect (ix2 n d) = R (ix2 n (col4 ⟨2, by decide⟩ d)) := by
  rw [readAcc_apply M _ 128 inbK ⟨2, by decide⟩ rfl n d, canon_acc_miss 64 inb1 P1 _ n (col4 ⟨2, by decide⟩ d) (Or.inr (by show 64 + 64 ≤ 2 * 64 + d.val; omega)), canon_acc_miss 0 inb0 P0 _ n (col4 ⟨2, by decide⟩ d) (Or.inr (by show 0 + 64 ≤ 2 * 64 + d.val; omega)), View.canon_unit_zero zeros2]

theorem readAcc3 (M : Memref sig .tc .vmem S2048x256 .f32) (P0 : Vec Ideal S2048x64 .f32) (P1 : Vec Ideal S2048x64 .f32) (P2 : Vec Ideal S2048x64 .f32) (R : Vec Ideal S2048x256 .f32) (inb0 : ∀ a, (![0, 0] : Fin 2 → Nat) a + S2048x64.size a ≤ S2048x256.size a) (inb1 : ∀ a, (![0, 64] : Fin 2 → Nat) a + S2048x64.size a ≤ S2048x256.size a) (inb2 : ∀ a, (![0, 128] : Fin 2 → Nat) a + S2048x64.size a ≤ S2048x256.size a) (inbW : ∀ a, (![0, 0] : Fin 2 → Nat) a + S2048x256.size a ≤ S2048x256.size a)
    (inbK : ∀ a, (![0, 192] : Fin 2 → Nat) a + S2048x64.size a ≤ S2048x256.size a) (n : Fin 2048) (d : Fin 64) :
    M.view.readCov [(⟨Rect.unit (s := S2048x256) ![0, 128] S2048x64.size inb2, P2⟩ : View.Piece (Elt Ideal) S2048x256 .f32), (⟨Rect.unit (s := S2048x256) ![0, 64] S2048x64.size inb1, P1⟩ : View.Piece (Elt Ideal) S2048x256 .f32), (⟨Rect.unit (s := S2048x256) ![0, 0] S2048x64.size inb0, P0⟩ : View.Piece (Elt Ideal) S2048x256 .f32), (⟨Rect.unit (s := S2048x256) ![0, 0] S2048x256.size inbW, R⟩ : View.Piece (Elt Ideal) S2048x256 .f32)] (Rect.unit (s := S2048x256) ![0, 192] S2048x64.size inbK).toLoadRect (ix2 n d) = R (ix2 n (col4 ⟨3, by decide⟩ d)) := by
  rw [readAcc_apply M _ 192 inbK ⟨3, by decide⟩ rfl n d, canon_acc_miss 128 inb2 P2 _ n (col4 ⟨3, by decide⟩ d) (Or.inr (by show 128 + 64 ≤ 3 * 64 + d.val; omega)), canon_acc_miss 64 inb1 P1 _ n (col4 ⟨3, by decide⟩ d) (Or.inr (by show 64 + 64 ≤ 3 * 64 + d.val; omega)), canon_acc_miss 0 inb0 P0 _ n (col4 ⟨3, by decide⟩ d) (Or.inr (by show 0 + 64 ≤ 3 * 64 + d.val; omega)), View.canon_unit_zero zeros2]

theorem canon_cols (P3 P2 P1 P0 : Vec Ideal S2048x1 .f32) (R : Vec Ideal S2048x4 .f32) (inb3 : ∀ a, (![0, 3] : Fin 2 → Nat) a + S2048x1.size a ≤ S2048x4.size a) (inb2 : ∀ a, (![0, 2] : Fin 2 → Nat) a + S2048x1.size a ≤ S2048x4.size a) (inb1 : ∀ a, (![0, 1] : Fin 2 → Nat) a + S2048x1.size a ≤ S2048x4.size a) (inb0 : ∀ a, (![0, 0] : Fin 2 → Nat) a + S2048x1.size a ≤ S2048x4.size a) (inbW : ∀ a, (![0, 0] : Fin 2 → Nat) a + S2048x4.size a ≤ S2048x4.size a)
    (n : Fin 2048) (h : Fin 4) (Y : Fin 4 → EReal)
    (h3 : P3 (ix2 n (0 : Fin 1)) = Y ⟨3, by decide⟩) (h2 : P2 (ix2 n (0 : Fin 1)) = Y ⟨2, by decide⟩) (h1 : P1 (ix2 n (0 : Fin 1)) = Y ⟨1, by decide⟩) (h0 : P0 (ix2 n (0 : Fin 1)) = Y ⟨0, by decide⟩) :
    View.canon [(⟨Rect.unit (s := S2048x4) ![0, 3] S2048x1.size inb3, P3⟩ : View.Piece (Elt Ideal) S2048x4 .f32), (⟨Rect.unit (s := S2048x4) ![0, 2] S2048x1.size inb2, P2⟩ : View.Piece (Elt Ideal) S2048x4 .f32), (⟨Rect.unit (s := S2048x4) ![0, 1] S2048x1.size inb1, P1⟩ : View.Piece (Elt Ideal) S2048x4 .f32), (⟨Rect.unit (s := S2048x4) ![0, 0] S2048x1.size inb0, P0⟩ : View.Piece (Elt Ideal) S2048x4 .f32), (⟨Rect.unit (s := S2048x4) ![0, 0] S2048x4.size inbW, R⟩ : View.Piece (Elt Ideal) S2048x4 .f32)] (ix2 n h) = Y h := by
  match h with
  | ⟨3, _⟩ => exact (canon_col_hit 3 inb3 P3 _ n ⟨3, by decide⟩ rfl).trans h3
  | ⟨2, _⟩ =>
    rw [canon_col_miss 3 inb3 P3 _ n ⟨2, by decide⟩ (by decide)]
    exact (canon_col_hit 2 inb2 P2 _ n ⟨2, by decide⟩ rfl).trans h2
  | ⟨1, _⟩ =>
    rw [canon_col_miss 3 inb3 P3 _ n ⟨1, by decide⟩ (by decide), canon_col_miss 2 inb2 P2 _ n ⟨1, by decide⟩ (by decide)]
    exact (canon_col_hit 1 inb1 P1 _ n ⟨1, by decide⟩ rfl).trans h1
  | ⟨0, _⟩ =>
    rw [canon_col_miss 3 inb3 P3 _ n ⟨0, by decide⟩ (by decide), canon_col_miss 2 inb2 P2 _ n ⟨0, by decide⟩ (by decide), canon_col_miss 1 inb1 P1 _ n ⟨0, by decide⟩ (by decide)]
    exact (canon_col_hit 0 inb0 P0 _ n ⟨0, by decide⟩ rfl).trans h0

theorem canon_accs (P3 P2 P1 P0 : Vec Ideal S2048x64 .f32) (R : Vec Ideal S2048x256 .f32) (inb3 : ∀ a, (![0, 192] : Fin 2 → Nat) a + S2048x64.size a ≤ S2048x256.size a) (inb2 : ∀ a, (![0, 128] : Fin 2 → Nat) a + S2048x64.size a ≤ S2048x256.size a) (inb1 : ∀ a, (![0, 64] : Fin 2 → Nat) a + S2048x64.size a ≤ S2048x256.size a) (inb0 : ∀ a, (![0, 0] : Fin 2 → Nat) a + S2048x64.size a ≤ S2048x256.size a) (inbW : ∀ a, (![0, 0] : Fin 2 → Nat) a + S2048x256.size a ≤ S2048x256.size a)
    (n : Fin 2048) (e : Fin 256) (Y : Fin 256 → EReal)
    (h3 : ∀ d, P3 (ix2 n d) = Y (col4 ⟨3, by decide⟩ d)) (h2 : ∀ d, P2 (ix2 n d) = Y (col4 ⟨2, by decide⟩ d)) (h1 : ∀ d, P1 (ix2 n d) = Y (col4 ⟨1, by decide⟩ d)) (h0 : ∀ d, P0 (ix2 n d) = Y (col4 ⟨0, by decide⟩ d)) :
    View.canon [(⟨Rect.unit (s := S2048x256) ![0, 192] S2048x64.size inb3, P3⟩ : View.Piece (Elt Ideal) S2048x256 .f32), (⟨Rect.unit (s := S2048x256) ![0, 128] S2048x64.size inb2, P2⟩ : View.Piece (Elt Ideal) S2048x256 .f32), (⟨Rect.unit (s := S2048x256) ![0, 64] S2048x64.size inb1, P1⟩ : View.Piece (Elt Ideal) S2048x256 .f32), (⟨Rect.unit (s := S2048x256) ![0, 0] S2048x64.size inb0, P0⟩ : View.Piece (Elt Ideal) S2048x256 .f32), (⟨Rect.unit (s := S2048x256) ![0, 0] S2048x256.size inbW, R⟩ : View.Piece (Elt Ideal) S2048x256 .f32)] (ix2 n e) = Y e := by
  obtain ⟨k, d, rfl⟩ : ∃ (k : Fin 4) (d : Fin 64), e = col4 k d := ⟨head4 e, lane4 e, (col4_head_lane e).symm⟩
  have hd := d.isLt
  match k with
  | ⟨3, _⟩ => exact (canon_acc_hit 192 inb3 P3 _ n ⟨3, by decide⟩ d rfl).trans (h3 d)
  | ⟨2, _⟩ =>
    rw [canon_acc_miss 192 inb3 P3 _ n (col4 ⟨2, by decide⟩ d) (Or.inl (by show 2 * 64 + d.val < 192; omega))]
    exact (canon_acc_hit 128 inb2 P2 _ n ⟨2, by decide⟩ d rfl).trans (h2 d)
  | ⟨1, _⟩ =>
    rw [canon_acc_miss 192 inb3 P3 _ n (col4 ⟨1, by decide⟩ d) (Or.inl (by show 1 * 64 + d.val < 192; omega)),
      canon_acc_miss 128 inb2 P2 _ n (col4 ⟨1, by decide⟩ d) (Or.inl (by show 1 * 64 + d.val < 128; omega))]
    exact (canon_acc_hit 64 inb1 P1 _ n ⟨1, by decide⟩ d rfl).trans (h1 d)
  | ⟨0, _⟩ =>
    rw [canon_acc_miss 192 inb3 P3 _ n (col4 ⟨0, by decide⟩ d) (Or.inl (by show 0 * 64 + d.val < 192; omega)),
      canon_acc_miss 128 inb2 P2 _ n (col4 ⟨0, by decide⟩ d) (Or.inl (by show 0 * 64 + d.val < 128; omega)),
      canon_acc_miss 64 inb1 P1 _ n (col4 ⟨0, by decide⟩ d) (Or.inl (by show 0 * 64 + d.val < 64; omega))]
    exact (canon_acc_hit 0 inb0 P0 _ n ⟨0, by decide⟩ d rfl).trans (h0 d)

theorem pay2_apply (v : Vec Ideal S1x2048x256 .bf16) (i : S1x2048x256.Idx) :
    k1_pay2 v i = v i * Ideal.ofBits .f32 0x3E000000#32 := by
  unfold k1_pay2
  simp only [shapeCast_self]
  rfl

theorem pay3_apply (i : S2048x4.Idx) : k1_pay3 (F := Ideal) i = Ideal.ofBits .f32 0xFF333332#32 := by
  unfold k1_pay3
  simp only [shapeCast_self]
  rfl

theorem pay4_apply (i : S2048x4.Idx) : k1_pay4 (F := Ideal) i = ((0 : ℝ) : EReal) := by
  unfold k1_pay4
  simp only [shapeCast_self]
  exact zero32

theorem pay5_apply (i : S2048x256.Idx) : k1_pay5 (F := Ideal) i = ((0 : ℝ) : EReal) := by
  unfold k1_pay5
  simp only [shapeCast_self]
  exact zero32

theorem Qr_val (arg3 : Memref sig .tc .vmem S1x2048x256 .bf16) (harg3 : arg3.IsWhole) (arg7 : Memref sig .tc .vmem S1x2048x256 .bf16)
    (x0 : Vec Ideal S1x2048x256 .bf16) (X0 : Fin 2048 → Fin 256 → ℝ) (hX : ∀ n e, x0 (ix3 (0 : Fin 1) n e) = ((X0 n e : ℝ) : EReal))
    (n : Fin 2048) (e : Fin 256) :
    arg7.view.readCov [(⟨Rect.unit (s := S1x2048x256) ![0, 0, 0] S1x2048x256.size inb_S1x2048x256_S1x2048x256_0_0_0, k1_pay2 (View.readAt (Elt Ideal) arg3.view (Rect.unit (s := S1x2048x256) ![0, 0, 0] S1x2048x256.size inb_S1x2048x256_S1x2048x256_0_0_0).toLoadRect (harg3.unread x0))⟩ : View.Piece (Elt Ideal) S1x2048x256 .bf16)]
        (Rect.unit (s := S1x2048x256) ![0, 0, 0] S1x2048x256.size inb_S1x2048x256_S1x2048x256_0_0_0).toLoadRect (ix3 (0 : Fin 1) n e)
      = ((X0 n e * (1 / 8) : ℝ) : EReal) := by
  rw [View.readCov_unit_zero (S := S1x2048x256) _ zeros3, loadQ_apply, pay2_apply, hX, c8, ← EReal.coe_mul]

abbrev QsA (X0 : Fin 2048 → Fin 256 → ℝ) : Fin 2048 → Fin 256 → ℝ := fun n e => X0 n e * (1 / 8)
abbrev MpA (negR : ℝ) : Fin 2048 → Fin 4 → ℝ := fun _ _ => negR
abbrev Z4 : Fin 2048 → Fin 4 → ℝ := fun _ _ => 0
abbrev Z256 : Fin 2048 → Fin 256 → ℝ := fun _ _ => 0

end PieceA

open PieceA

variable {c : Dev nD} {i : grid1.Coords} {arg3 : Memref sig .tc .vmem S1x2048x256 .bf16} {harg3 : arg3.IsWhole} {arg4 : Memref sig .tc .vmem S1x512x256 .bf16} {harg4 : arg4.IsWhole} {arg5 : Memref sig .tc .vmem S1x512x256 .bf16} {harg5 : arg5.IsWhole} {arg6 : Memref sig .tc .vmem S1x2048x256 .bf16} {harg6 : arg6.IsWhole} {arg7 : Memref sig .tc .vmem S1x2048x256 .bf16} {harg7 : arg7.IsWhole} {arg8 : Memref sig .tc .vmem S2048x4 .f32} {harg8 : arg8.IsWhole} {arg9 : Memref sig .tc .vmem S2048x4 .f32} {harg9 : arg9.IsWhole} {arg10 : Memref sig .tc .vmem S2048x256 .f32} {harg10 : arg10.IsWhole} {hc0 : cond1_0 i} {hc1 : ¬cond1_1 i} {x0 : Vec Ideal S1x2048x256 .bf16} {x1 x2 : Vec Ideal S1x512x256 .bf16}
  {X0 : Fin 2048 → Fin 256 → ℝ} {Kb Vb : Fin 512 → Fin 256 → ℝ} {negR : ℝ} (hneg : Ideal.ofBits .f32 0xFF333332#32 = ((negR : ℝ) : EReal))
  (hX : ∀ n e, x0 (ix3 (0 : Fin 1) n e) = ((X0 n e : ℝ) : EReal)) (hK : ∀ jj e, x1 (ix3 (0 : Fin 1) jj e) = ((Kb jj e : ℝ) : EReal))
  (hV : ∀ jj e, x2 (ix3 (0 : Fin 1) jj e) = ((Vb jj e : ℝ) : EReal))

include hneg hX hK hV in
theorem sQ_A_val (n : Fin 2048) (e : Fin 256) :
    sQ_A c i arg3 harg3 arg4 harg4 arg5 harg5 arg6 harg6 arg7 harg7 arg8 harg8 arg9 harg9 arg10 harg10 hc0 hc1 x0 x1 x2 (ix3 (0 : Fin 1) n e) = ((X0 n e * (1 / 8) : ℝ) : EReal) := by
  unfold sQ_A
  rw [View.read_writes_junk_eq_canon]
  unfold kernelRun1_A
  dsimp only
  sl_unfold_words
  rw [View.canon_unit_zero (S := S1x2048x256) Head.zeros3, Head.loadQ_apply, pay2_apply, hX, Cert.FlashMath.c8, ← EReal.coe_mul]

include hneg hX hK hV in
theorem sM_A_val (n : Fin 2048) (h : Fin 4) :
    sM_A c i arg3 harg3 arg4 harg4 arg5 harg5 arg6 harg6 arg7 harg7 arg8 harg8 arg9 harg9 arg10 harg10 hc0 hc1 x0 x1 x2 (ix2 n h) = ((mNew (QsA X0) Kb (MpA negR) n h : ℝ) : EReal) := by
  unfold sM_A
  rw [View.read_writes_junk_eq_canon]
  unfold kernelRun1_A
  dsimp only
  sl_unfold_words
  have hQ := Qr_val arg3 harg3 arg7 x0 X0 hX
  have hKr := Head.loadK_val arg4 harg4 x1 Kb hK
  exact canon_cols _ _ _ _ _ _ _ _ _ _ n h (fun h => ((mNew (QsA X0) Kb (MpA negR) n h : ℝ) : EReal))
    (Head.payM_val 3 192 rfl hQ hKr (Head.payM3 _ _ _) (fun n' u => (readCol3 arg8 _ _ _ _ _ _ _ _ _ n' u).trans ((pay3_apply _).trans hneg)) n 0)
    (Head.payM_val 2 128 rfl hQ hKr (Head.payM2 _ _ _) (fun n' u => (readCol2 arg8 _ _ _ _ _ _ _ n' u).trans ((pay3_apply _).trans hneg)) n 0)
    (Head.payM_val 1 64 rfl hQ hKr (Head.payM1 _ _ _) (fun n' u => (readCol1 arg8 _ _ _ _ _ n' u).trans ((pay3_apply _).trans hneg)) n 0)
    (Head.payM_val 0 0 rfl hQ hKr (Head.payM0 _ _ _) (fun n' u => (readCol0 arg8 _ _ _ n' u).trans ((pay3_apply _).trans hneg)) n 0)

include hneg hX hK hV in
theorem sL_A_val (n : Fin 2048) (h : Fin 4) :
    sL_A c i arg3 harg3 arg4 harg4 arg5 harg5 arg6 harg6 arg7 harg7 arg8 harg8 arg9 harg9 arg10 harg10 hc0 hc1 x0 x1 x2 (ix2 n h) = ((lNew (QsA X0) Kb (MpA negR) Z4 n h : ℝ) : EReal) := by
  unfold sL_A
  rw [View.read_writes_junk_eq_canon]
  unfold kernelRun1_A
  dsimp only
  sl_unfold_words
  have hQ := Qr_val arg3 harg3 arg7 x0 X0 hX
  have hKr := Head.loadK_val arg4 harg4 x1 Kb hK
  exact canon_cols _ _ _ _ _ _ _ _ _ _ n h (fun h => ((lNew (QsA X0) Kb (MpA negR) Z4 n h : ℝ) : EReal))
    (Head.payL_val 3 192 rfl hQ hKr (Head.payL3 _ _ _ _) (fun n' u => (readCol3 arg8 _ _ _ _ _ _ _ _ _ n' u).trans ((pay3_apply _).trans hneg)) (fun n' u => (readCol3 arg9 _ _ _ _ _ _ _ _ _ n' u).trans (pay4_apply _)) n 0)
    (Head.payL_val 2 128 rfl hQ hKr (Head.payL2 _ _ _ _) (fun n' u => (readCol2 arg8 _ _ _ _ _ _ _ n' u).trans ((pay3_apply _).trans hneg)) (fun n' u => (readCol2 arg9 _ _ _ _ _ _ _ n' u).trans (pay4_apply _)) n 0)
    (Head.payL_val 1 64 rfl hQ hKr (Head.payL1 _ _ _ _) (fun n' u => (readCol1 arg8 _ _ _ _ _ n' u).trans ((pay3_apply _).trans hneg)) (fun n' u => (readCol1 arg9 _ _ _ _ _ n' u).trans (pay4_apply _)) n 0)
    (Head.payL_val 0 0 rfl hQ hKr (Head.payL0 _ _ _ _) (fun n' u => (readCol0 arg8 _ _ _ n' u).trans ((pay3_apply _).trans hneg)) (fun n' u => (readCol0 arg9 _ _ _ n' u).trans (pay4_apply _)) n 0)

include hneg hX hK hV in
theorem sA_A_val (n : Fin 2048) (e : Fin 256) :
    sA_A c i arg3 harg3 arg4 harg4 arg5 harg5 arg6 harg6 arg7 harg7 arg8 harg8 arg9 harg9 arg10 harg10 hc0 hc1 x0 x1 x2 (ix2 n e) = ((aNew (QsA X0) Kb Vb (MpA negR) Z256 n e : ℝ) : EReal) := by
  unfold sA_A
  rw [View.read_writes_junk_eq_canon]
  unfold kernelRun1_A
  dsimp only
  sl_unfold_words
  have hQ := Qr_val arg3 harg3 arg7 x0 X0 hX
  have hKr := Head.loadK_val arg4 harg4 x1 Kb hK
  have hVr := Head.loadK_val arg5 harg5 x2 Vb hV
  exact canon_accs _ _ _ _ _ _ _ _ _ _ n e (fun e => ((aNew (QsA X0) Kb Vb (MpA negR) Z256 n e : ℝ) : EReal))
    (fun d => Head.payA_val 3 192 rfl hQ hKr hVr (Head.payA3 _ _ _ _ _) (fun n' u => (readCol3 arg8 _ _ _ _ _ _ _ _ _ n' u).trans ((pay3_apply _).trans hneg)) (fun n' d' => (readAcc3 arg10 _ _ _ _ _ _ _ _ _ n' d').trans (pay5_apply _)) n d)
    (fun d => Head.payA_val 2 128 rfl hQ hKr hVr (Head.payA2 _ _ _ _ _) (fun n' u => (readCol2 arg8 _ _ _ _ _ _ _ n' u).trans ((pay3_apply _).trans hneg)) (fun n' d' => (readAcc2 arg10 _ _ _ _ _ _ _ n' d').trans (pay5_apply _)) n d)
    (fun d => Head.payA_val 1 64 rfl hQ hKr hVr (Head.payA1 _ _ _ _ _) (fun n' u => (readCol1 arg8 _ _ _ _ _ n' u).trans ((pay3_apply _).trans hneg)) (fun n' d' => (readAcc1 arg10 _ _ _ _ _ n' d').trans (pay5_apply _)) n d)
    (fun d => Head.payA_val 0 0 rfl hQ hKr hVr (Head.payA0 _ _ _ _ _) (fun n' u => (readCol0 arg8 _ _ _ n' u).trans ((pay3_apply _).trans hneg)) (fun n' d' => (readAcc0 arg10 _ _ _ n' d').trans (pay5_apply _)) n d)

end Cert.KernelIdeal.Hand

end
-- ==== Proof.KI.R1PieceB.lean ====
/- At a middle key block the running maxima, sums and accumulator are the block's update of what the point before left. -/
import proofs.«401092_j26680336843340_3_alg».proof.Proof.KI.R1Head

set_option maxRecDepth 16384

noncomputable section

namespace Cert.KernelIdeal.Hand

open Idealize.ShloMosaic Idealize.ShloMosaic.TcCoe Idealize.ShloMosaic.Tactic Idealize.ShloMosaic.ValueIdx
open Cert.KernelIdeal Cert.KernelIdeal.Gen Cert.BlockSpec

variable {c : Dev nD} {i : grid1.Coords} {arg3 : Memref sig .tc .vmem S1x2048x256 .bf16} {harg3 : arg3.IsWhole} {arg4 : Memref sig .tc .vmem S1x512x256 .bf16} {harg4 : arg4.IsWhole} {arg5 : Memref sig .tc .vmem S1x512x256 .bf16} {harg5 : arg5.IsWhole} {arg6 : Memref sig .tc .vmem S1x2048x256 .bf16} {harg6 : arg6.IsWhole} {arg7 : Memref sig .tc .vmem S1x2048x256 .bf16} {harg7 : arg7.IsWhole} {arg8 : Memref sig .tc .vmem S2048x4 .f32} {harg8 : arg8.IsWhole} {arg9 : Memref sig .tc .vmem S2048x4 .f32} {harg9 : arg9.IsWhole} {arg10 : Memref sig .tc .vmem S2048x256 .f32} {harg10 : arg10.IsWhole} {hc0 : ¬cond1_0 i} {hc1 : ¬cond1_1 i}
  {x0 : Vec Ideal S1x2048x256 .bf16} {x1 x2 : Vec Ideal S1x512x256 .bf16} {xs0 : Vec Ideal S1x2048x256 .bf16} {xs1 xs2 : Vec Ideal S2048x4 .f32} {xs3 : Vec Ideal S2048x256 .f32}
  {Qs : Fin 2048 → Fin 256 → ℝ} {Kb Vb : Fin 512 → Fin 256 → ℝ} {Mp Lp : Fin 2048 → Fin 4 → ℝ} {Ap : Fin 2048 → Fin 256 → ℝ}
  (hQ : ∀ n e, xs0 (ix3 (0 : Fin 1) n e) = ((Qs n e : ℝ) : EReal)) (hK : ∀ jj e, x1 (ix3 (0 : Fin 1) jj e) = ((Kb jj e : ℝ) : EReal))
  (hV : ∀ jj e, x2 (ix3 (0 : Fin 1) jj e) = ((Vb jj e : ℝ) : EReal)) (hM : ∀ n h, xs1 (ix2 n h) = ((Mp n h : ℝ) : EReal))
  (hL : ∀ n h, xs2 (ix2 n h) = ((Lp n h : ℝ) : EReal)) (hA : ∀ n e, xs3 (ix2 n e) = ((Ap n e : ℝ) : EReal))

include hQ hK hV hM hL hA in
theorem sM_B_val (n : Fin 2048) (h : Fin 4) :
    sM_B c i arg3 harg3 arg4 harg4 arg5 harg5 arg6 harg6 arg7 harg7 arg8 harg8 arg9 harg9 arg10 harg10 hc0 hc1 x0 x1 x2 xs0 xs1 xs2 xs3 (ix2 n h) = ((mNew Qs Kb Mp n h : ℝ) : EReal) := by
  unfold sM_B
  rw [View.read_writes_junk_eq_canon]
  have hcov := (covers_B c i arg3 harg3 arg4 harg4 arg5 harg5 arg6 harg6 arg7 harg7 arg8 harg8 arg9 harg9 arg10 harg10 hc0 hc1 x0 x1 x2 xs0 xs1 xs2 xs3).1 (ix2 n h)
  revert hcov
  unfold kernelRun1_B
  dsimp only
  sl_unfold_words
  intro hcov
  have hq := Head.loadQ_val arg7 harg7 xs0 Qs hQ
  have hk := Head.loadK_val arg4 harg4 x1 Kb hK
  exact Head.canon4 hcov (Head.gCol (mNew Qs Kb Mp))
    (Head.colPiece 3 3 rfl inb_S2048x4_S2048x1_0_3 (Head.payM_val 3 192 rfl hq hk (Head.payM3 _ _ _) (Head.loadCol_val arg8 harg8 xs1 Mp hM 3 _ 3 rfl)))
    (Head.colPiece 2 2 rfl inb_S2048x4_S2048x1_0_2 (Head.payM_val 2 128 rfl hq hk (Head.payM2 _ _ _) (Head.loadCol_val arg8 harg8 xs1 Mp hM 2 _ 2 rfl)))
    (Head.colPiece 1 1 rfl inb_S2048x4_S2048x1_0_1 (Head.payM_val 1 64 rfl hq hk (Head.payM1 _ _ _) (Head.loadCol_val arg8 harg8 xs1 Mp hM 1 _ 1 rfl)))
    (Head.colPiece 0 0 rfl inb_S2048x4_S2048x1_0_0 (Head.payM_val 0 0 rfl hq hk (Head.payM0 _ _ _) (Head.loadCol_val arg8 harg8 xs1 Mp hM 0 _ 0 rfl)))

include hQ hK hV hM hL hA in
theorem sL_B_val (n : Fin 2048) (h : Fin 4) :
    sL_B c i arg3 harg3 arg4 harg4 arg5 harg5 arg6 harg6 arg7 harg7 arg8 harg8 arg9 harg9 arg10 harg10 hc0 hc1 x0 x1 x2 xs0 xs1 xs2 xs3 (ix2 n h) = ((lNew Qs Kb Mp Lp n h : ℝ) : EReal) := by
  unfold sL_B
  rw [View.read_writes_junk_eq_canon]
  have hcov := (covers_B c i arg3 harg3 arg4 harg4 arg5 harg5 arg6 harg6 arg7 harg7 arg8 harg8 arg9 harg9 arg10 harg10 hc0 hc1 x0 x1 x2 xs0 xs1 xs2 xs3).2.1 (ix2 n h)
  revert hcov
  unfold kernelRun1_B
  dsimp only
  sl_unfold_words
  intro hcov
  have hq := Head.loadQ_val arg7 harg7 xs0 Qs hQ
  have hk := Head.loadK_val arg4 harg4 x1 Kb hK
  exact Head.canon4 hcov (Head.gCol (lNew Qs Kb Mp Lp))
    (Head.colPiece 3 3 rfl inb_S2048x4_S2048x1_0_3 (Head.payL_val 3 192 rfl hq hk (Head.payL3 _ _ _ _) (Head.loadCol_val arg8 harg8 xs1 Mp hM 3 _ 3 rfl) (Head.loadCol_val arg9 harg9 xs2 Lp hL 3 _ 3 rfl)))
    (Head.colPiece 2 2 rfl inb_S2048x4_S2048x1_0_2 (Head.payL_val 2 128 rfl hq hk (Head.payL2 _ _ _ _) (Head.loadCol_val arg8 harg8 xs1 Mp hM 2 _ 2 rfl) (Head.loadCol_val arg9 harg9 xs2 Lp hL 2 _ 2 rfl)))
    (Head.colPiece 1 1 rfl inb_S2048x4_S2048x1_0_1 (Head.payL_val 1 64 rfl hq hk (Head.payL1 _ _ _ _) (Head.loadCol_val arg8 harg8 xs1 Mp hM 1 _ 1 rfl) (Head.loadCol_val arg9 harg9 xs2 Lp hL 1 _ 1 rfl)))
    (Head.colPiece 0 0 rfl inb_S2048x4_S2048x1_0_0 (Head.payL_val 0 0 rfl hq hk (Head.payL0 _ _ _ _) (Head.loadCol_val arg8 harg8 xs1 Mp hM 0 _ 0 rfl) (Head.loadCol_val arg9 harg9 xs2 Lp hL 0 _ 0 rfl)))

include hQ hK hV hM hL hA in
theorem sA_B_val (n : Fin 2048) (e : Fin 256) :
    sA_B c i arg3 harg3 arg4 harg4 arg5 harg5 arg6 harg6 arg7 harg7 arg8 harg8 arg9 harg9 arg10 harg10 hc0 hc1 x0 x1 x2 xs0 xs1 xs2 xs3 (ix2 n e) = ((aNew Qs Kb Vb Mp Ap n e : ℝ) : EReal) := by
  unfold sA_B
  rw [View.read_writes_junk_eq_canon]
  have hcov := (covers_B c i arg3 harg3 arg4 harg4 arg5 harg5 arg6 harg6 arg7 harg7 arg8 harg8 arg9 harg9 arg10 harg10 hc0 hc1 x0 x1 x2 xs0 xs1 xs2 xs3).2.2 (ix2 n e)
  revert hcov
  unfold kernelRun1_B
  dsimp only
  sl_unfold_words
  intro hcov
  have hq := Head.loadQ_val arg7 harg7 xs0 Qs hQ
  have hk := Head.loadK_val arg4 harg4 x1 Kb hK
  have hv := Head.loadK_val arg5 harg5 x2 Vb hV
  exact Head.canon4 hcov (Head.gAcc (aNew Qs Kb Vb Mp Ap))
    (Head.accPiece 3 192 rfl inb_S2048x256_S2048x64_0_192 (Head.payA_val 3 192 rfl hq hk hv (Head.payA3 _ _ _ _ _) (Head.loadCol_val arg8 harg8 xs1 Mp hM 3 _ 3 rfl) (Head.loadAcc_val arg10 harg10 xs3 Ap hA 192 _ 3 rfl)))
    (Head.accPiece 2 128 rfl inb_S2048x256_S2048x64_0_128 (Head.payA_val 2 128 rfl hq hk hv (Head.payA2 _ _ _ _ _) (Head.loadCol_val arg8 harg8 xs1 Mp hM 2 _ 2 rfl) (Head.loadAcc_val arg10 harg10 xs3 Ap hA 128 _ 2 rfl)))
    (Head.accPiece 1 64 rfl inb_S2048x256_S2048x64_0_64 (Head.payA_val 1 64 rfl hq hk hv (Head.payA1 _ _ _ _ _) (Head.loadCol_val arg8 harg8 xs1 Mp hM 1 _ 1 rfl) (Head.loadAcc_val arg10 harg10 xs3 Ap hA 64 _ 1 rfl)))
    (Head.accPiece 0 0 rfl inb_S2048x256_S2048x64_0_0 (Head.payA_val 0 0 rfl hq hk hv (Head.payA0 _ _ _ _ _) (Head.loadCol_val arg8 harg8 xs1 Mp hM 0 _ 0 rfl) (Head.loadAcc_val arg10 harg10 xs3 Ap hA 0 _ 0 rfl)))

end Cert.KernelIdeal.Hand

end
-- ==== Proof.KI.R1PieceC.lean ====
/- At the last key block likewise, and the output block is accumulator over sum: a real quotient, since no sum vanishes. -/
import proofs.«401092_j26680336843340_3_alg».proof.Proof.KI.R1Head

set_option maxRecDepth 16384

noncomputable section

namespace Cert.KernelIdeal.Hand

open Idealize.ShloMosaic Idealize.ShloMosaic.TcCoe Idealize.ShloMosaic.Tactic Idealize.ShloMosaic.ValueIdx
open Cert.KernelIdeal Cert.KernelIdeal.Gen Cert.BlockSpec

namespace PieceC

open Head Cert.FlashMath

def sel4 {β : Type} (a b c d : β) : Fin 4 → β
  | 0 => a
  | 1 => b
  | 2 => c
  | 3 => d

theorem concat4_apply {α : Type} (v0 v1 v2 v3 : S2048x64.Idx → α) (n : Fin 2048) (d : Fin 64) (k : Fin 4) :
    concatenate S2048x256 1 [⟨S2048x64, v0⟩, ⟨S2048x64, v1⟩, ⟨S2048x64, v2⟩, ⟨S2048x64, v3⟩]
        concatenates_S2048x64_S2048x64_S2048x64_S2048x64_S2048x256_d1 (ix2 n (col4 k d))
      = sel4 v0 v1 v2 v3 k (ix2 n d) := by
  have hi : ∀ b : Fin S2048x64.rank, b.cast (rfl : S2048x64.rank = S2048x256.rank) ≠ (1 : Fin S2048x256.rank) →
      ((ix2 n d) b).val = ((ix2 n (col4 k d)) (b.cast (rfl : S2048x64.rank = S2048x256.rank))).val := fun b hb => by
    match b with
    | ⟨0, _⟩ => rfl
    | ⟨1, _⟩ => exact absurd (Fin.ext rfl) hb
  fin_cases k
  · exact concatenate_apply_piece 1 _ _ (ix2 n (col4 0 d)) 0 (by simp) S2048x64 v0 rfl rfl 0 rfl (ix2 n d) hi
      (by show 0 + d.val = 0 * 64 + d.val; omega)
  · exact concatenate_apply_piece 1 _ _ (ix2 n (col4 1 d)) 1 (by simp) S2048x64 v1 rfl rfl 64 rfl (ix2 n d) hi
      (by show 64 + d.val = 1 * 64 + d.val; omega)
  · exact concatenate_apply_piece 1 _ _ (ix2 n (col4 2 d)) 2 (by simp) S2048x64 v2 rfl rfl 128 rfl (ix2 n d) hi
      (by show 128 + d.val = 2 * 64 + d.val; omega)
  · exact concatenate_apply_piece 1 _ _ (ix2 n (col4 3 d)) 3 (by simp) S2048x64 v3 rfl rfl 192 rfl (ix2 n d) hi
      (by show 192 + d.val = 3 * 64 + d.val; omega)

theorem col4_head_lane (e : Fin 256) : col4 (head4 e) (lane4 e) = e :=
  Fin.ext (by show e.val / 64 * 64 + e.val % 64 = e.val; omega)

theorem pay1_val (A : Fin 2048 → Fin 256 → ℝ) (L : Fin 2048 → Fin 4 → ℝ) (hL0 : ∀ n h, L n h ≠ 0)
    (a0 a1 a2 a3 : Vec Ideal S2048x64 .f32) (l0 l1 l2 l3 : Vec Ideal S2048x1 .f32)
    (ha0 : ∀ n d, a0 (ix2 n d) = ((A n (col4 0 d) : ℝ) : EReal)) (ha1 : ∀ n d, a1 (ix2 n d) = ((A n (col4 1 d) : ℝ) : EReal))
    (ha2 : ∀ n d, a2 (ix2 n d) = ((A n (col4 2 d) : ℝ) : EReal)) (ha3 : ∀ n d, a3 (ix2 n d) = ((A n (col4 3 d) : ℝ) : EReal))
    (hl0 : ∀ n u, l0 (ix2 n u) = ((L n 0 : ℝ) : EReal)) (hl1 : ∀ n u, l1 (ix2 n u) = ((L n 1 : ℝ) : EReal))
    (hl2 : ∀ n u, l2 (ix2 n u) = ((L n 2 : ℝ) : EReal)) (hl3 : ∀ n u, l3 (ix2 n u) = ((L n 3 : ℝ) : EReal))
    (n : Fin 2048) (e : Fin 256) :
    k1_pay1 a0 l0 a1 l1 a2 l2 a3 l3 (ix3 (0 : Fin 1) n e) = ((A n e / L n (head4 e) : ℝ) : EReal) := by
  obtain ⟨k, d, rfl⟩ : ∃ (k : Fin 4) (d : Fin 64), e = col4 k d := ⟨head4 e, lane4 e, (col4_head_lane e).symm⟩
  rw [head4_col4]
  have e1 : k1_pay1 a0 l0 a1 l1 a2 l2 a3 l3 (ix3 (0 : Fin 1) n (col4 k d))
      = shapeCast S1x2048x256 (concatenate S2048x256 1
          [⟨S2048x64, divf a0 (broadcastTo S2048x64 l0 broadcasts_S2048x1_S2048x64)⟩,
           ⟨S2048x64, divf a1 (broadcastTo S2048x64 l1 broadcasts_S2048x1_S2048x64)⟩,
           ⟨S2048x64, divf a2 (broadcastTo S2048x64 l2 broadcasts_S2048x1_S2048x64)⟩,
           ⟨S2048x64, divf a3 (broadcastTo S2048x64 l3 broadcasts_S2048x1_S2048x64)⟩]
          concatenates_S2048x64_S2048x64_S2048x64_S2048x64_S2048x256_d1) shapeCasts_S2048x256_S1x2048x256
          (ix3 (0 : Fin 1) n (col4 k d)) := rfl
  refine e1.trans ?_
  refine (shapeCast_ab_1ab_apply _ shapeCasts_S2048x256_S1x2048x256 (0 : Fin 1) n (col4 k d)).trans ?_
  refine (concat4_apply _ _ _ _ n d k).trans ?_
  fin_cases k
  · exact (congrArg₂ Ideal.div (ha0 n d) ((spread64_apply l0 n d).trans (hl0 n 0))).trans (div_coe' _ _ (hL0 n 0))
  · exact (congrArg₂ Ideal.div (ha1 n d) ((spread64_apply l1 n d).trans (hl1 n 0))).trans (div_coe' _ _ (hL0 n 1))
  · exact (congrArg₂ Ideal.div (ha2 n d) ((spread64_apply l2 n d).trans (hl2 n 0))).trans (div_coe' _ _ (hL0 n 2))
  · exact (congrArg₂ Ideal.div (ha3 n d) ((spread64_apply l3 n d).trans (hl3 n 0))).trans (div_coe' _ _ (hL0 n 3))

theorem outPiece_val (M10 : Memref sig .tc .vmem S2048x256 .f32) (M9 : Memref sig .tc .vmem S2048x4 .f32)
    (LA : List (View.Piece (Elt Ideal) S2048x256 .f32)) (LL : List (View.Piece (Elt Ideal) S2048x4 .f32))
    (A : Fin 2048 → Fin 256 → ℝ) (L : Fin 2048 → Fin 4 → ℝ) (hL0 : ∀ n h, L n h ≠ 0)
    (hA' : ∀ (n : Fin 2048) (e : Fin 256), View.canon LA (ix2 n e) = ((A n e : ℝ) : EReal))
    (hL' : ∀ (n : Fin 2048) (h : Fin 4), View.canon LL (ix2 n h) = ((L n h : ℝ) : EReal))
    (n : Fin 2048) (e : Fin 256) :
    View.canon [(⟨Rect.unit (s := S1x2048x256) ![0, 0, 0] ![1, 2048, 256] inb_S1x2048x256_S1x2048x256_0_0_0,
        k1_pay1
          (M10.view.readCov LA (Rect.unit (s := S2048x256) ![0, 0] S2048x64.size inb_S2048x256_S2048x64_0_0).toLoadRect)
          (M9.view.readCov LL (Rect.unit (s := S2048x4) ![0, 0] S2048x1.size inb_S2048x4_S2048x1_0_0).toLoadRect)
          (M10.view.readCov LA (Rect.unit (s := S2048x256) ![0, 64] S2048x64.size inb_S2048x256_S2048x64_0_64).toLoadRect)
          (M9.view.readCov LL (Rect.unit (s := S2048x4) ![0, 1] S2048x1.size inb_S2048x4_S2048x1_0_1).toLoadRect)
          (M10.view.readCov LA (Rect.unit (s := S2048x256) ![0, 128] S2048x64.size inb_S2048x256_S2048x64_0_128).toLoadRect)
          (M9.view.readCov LL (Rect.unit (s := S2048x4) ![0, 2] S2048x1.size inb_S2048x4_S2048x1_0_2).toLoadRect)
          (M10.view.readCov LA (Rect.unit (s := S2048x256) ![0, 192] S2048x64.size inb_S2048x256_S2048x64_0_192).toLoadRect)
          (M9.view.readCov LL (Rect.unit (s := S2048x4) ![0, 3] S2048x1.size inb_S2048x4_S2048x1_0_3).toLoadRect)⟩ :
          View.Piece (Elt Ideal) S1x2048x256 .bf16)] (ix3 (0 : Fin 1) n e)
      = ((A n e / L n (head4 e) : ℝ) : EReal) := by
  have rA := fun o inb k' ho n d => (readAcc_apply M10 LA o inb k' ho n d).trans (hA' n (col4 k' d))
  have rL := fun k inb k' hk n u => (readCol_apply M9 LL k inb k' hk n u).trans (hL' n k')
  refine (congrFun (View.canon_unit_zero (S := S1x2048x256) zeros3 _ _) (ix3 (0 : Fin 1) n e)).trans ?_
  exact pay1_val A L hL0 _ _ _ _ _ _ _ _
    (rA 0 _ 0 rfl) (rA 64 _ 1 rfl) (rA 128 _ 2 rfl) (rA 192 _ 3 rfl)
    (rL 0 _ 0 rfl) (rL 1 _ 1 rfl) (rL 2 _ 2 rfl) (rL 3 _ 3 rfl) n e

end PieceC

variable {c : Dev nD} {i : grid1.Coords} {arg3 : Memref sig .tc .vmem S1x2048x256 .bf16} {harg3 : arg3.IsWhole} {arg4 : Memref sig .tc .vmem S1x512x256 .bf16} {harg4 : arg4.IsWhole} {arg5 : Memref sig .tc .vmem S1x512x256 .bf16} {harg5 : arg5.IsWhole} {arg6 : Memref sig .tc .vmem S1x2048x256 .bf16} {harg6 : arg6.IsWhole} {arg7 : Memref sig .tc .vmem S1x2048x256 .bf16} {harg7 : arg7.IsWhole} {arg8 : Memref sig .tc .vmem S2048x4 .f32} {harg8 : arg8.IsWhole} {arg9 : Memref sig .tc .vmem S2048x4 .f32} {harg9 : arg9.IsWhole} {arg10 : Memref sig .tc .vmem S2048x256 .f32} {harg10 : arg10.IsWhole} {hc0 : ¬cond1_0 i} {hc1 : cond1_1 i}
  {x0 : Vec Ideal S1x2048x256 .bf16} {x1 x2 : Vec Ideal S1x512x256 .bf16} {xs0 : Vec Ideal S1x2048x256 .bf16} {xs1 xs2 : Vec Ideal S2048x4 .f32} {xs3 : Vec Ideal S2048x256 .f32}
  {Qs : Fin 2048 → Fin 256 → ℝ} {Kb Vb : Fin 512 → Fin 256 → ℝ} {Mp Lp : Fin 2048 → Fin 4 → ℝ} {Ap : Fin 2048 → Fin 256 → ℝ}
  (hQ : ∀ n e, xs0 (ix3 (0 : Fin 1) n e) = ((Qs n e : ℝ) : EReal)) (hK : ∀ jj e, x1 (ix3 (0 : Fin 1) jj e) = ((Kb jj e : ℝ) : EReal))
  (hV : ∀ jj e, x2 (ix3 (0 : Fin 1) jj e) = ((Vb jj e : ℝ) : EReal)) (hM : ∀ n h, xs1 (ix2 n h) = ((Mp n h : ℝ) : EReal))
  (hL : ∀ n h, xs2 (ix2 n h) = ((Lp n h : ℝ) : EReal)) (hA : ∀ n e, xs3 (ix2 n e) = ((Ap n e : ℝ) : EReal))

include hQ hK hV hM hL hA in
theorem sM_C_val (n : Fin 2048) (h : Fin 4) :
    sM_C c i arg3 harg3 arg4 harg4 arg5 harg5 arg6 harg6 arg7 harg7 arg8 harg8 arg9 harg9 arg10 harg10 hc0 hc1 x0 x1 x2 xs0 xs1 xs2 xs3 (ix2 n h) = ((mNew Qs Kb Mp n h : ℝ) : EReal) := by
  unfold sM_C
  rw [View.read_writes_junk_eq_canon]
  have hcov := (covers_C c i arg3 harg3 arg4 harg4 arg5 harg5 arg6 harg6 arg7 harg7 arg8 harg8 arg9 harg9 arg10 harg10 hc0 hc1 x0 x1 x2 xs0 xs1 xs2 xs3).2.1 (ix2 n h)
  revert hcov
  unfold kernelRun1_C
  dsimp only
  sl_unfold_words
  intro hcov
  have hq := Head.loadQ_val arg7 harg7 xs0 Qs hQ
  have hk := Head.loadK_val arg4 harg4 x1 Kb hK
  exact Head.canon4 hcov (Head.gCol (mNew Qs Kb Mp))
    (Head.colPiece 3 3 rfl inb_S2048x4_S2048x1_0_3 (Head.payM_val 3 192 rfl hq hk (Head.payM3 _ _ _) (Head.loadCol_val arg8 harg8 xs1 Mp hM 3 _ 3 rfl)))
    (Head.colPiece 2 2 rfl inb_S2048x4_S2048x1_0_2 (Head.payM_val 2 128 rfl hq hk (Head.payM2 _ _ _) (Head.loadCol_val arg8 harg8 xs1 Mp hM 2 _ 2 rfl)))
    (Head.colPiece 1 1 rfl inb_S2048x4_S2048x1_0_1 (Head.payM_val 1 64 rfl hq hk (Head.payM1 _ _ _) (Head.loadCol_val arg8 harg8 xs1 Mp hM 1 _ 1 rfl)))
    (Head.colPiece 0 0 rfl inb_S2048x4_S2048x1_0_0 (Head.payM_val 0 0 rfl hq hk (Head.payM0 _ _ _) (Head.loadCol_val arg8 harg8 xs1 Mp hM 0 _ 0 rfl)))

include hQ hK hV hM hL hA in
theorem sL_C_val (n : Fin 2048) (h : Fin 4) :
    sL_C c i arg3 harg3 arg4 harg4 arg5 harg5 arg6 harg6 arg7 harg7 arg8 harg8 arg9 harg9 arg10 harg10 hc0 hc1 x0 x1 x2 xs0 xs1 xs2 xs3 (ix2 n h) = ((lNew Qs Kb Mp Lp n h : ℝ) : EReal) := by
  unfold sL_C
  rw [View.read_writes_junk_eq_canon]
  have hcov := (covers_C c i arg3 harg3 arg4 harg4 arg5 harg5 arg6 harg6 arg7 harg7 arg8 harg8 arg9 harg9 arg10 harg10 hc0 hc1 x0 x1 x2 xs0 xs1 xs2 xs3).2.2.1 (ix2 n h)
  revert hcov
  unfold kernelRun1_C
  dsimp only
  sl_unfold_words
  intro hcov
  have hq := Head.loadQ_val arg7 harg7 xs0 Qs hQ
  have hk := Head.loadK_val arg4 harg4 x1 Kb hK
  exact Head.canon4 hcov (Head.gCol (lNew Qs Kb Mp Lp))
    (Head.colPiece 3 3 rfl inb_S2048x4_S2048x1_0_3 (Head.payL_val 3 192 rfl hq hk (Head.payL3 _ _ _ _) (Head.loadCol_val arg8 harg8 xs1 Mp hM 3 _ 3 rfl) (Head.loadCol_val arg9 harg9 xs2 Lp hL 3 _ 3 rfl)))
    (Head.colPiece 2 2 rfl inb_S2048x4_S2048x1_0_2 (Head.payL_val 2 128 rfl hq hk (Head.payL2 _ _ _ _) (Head.loadCol_val arg8 harg8 xs1 Mp hM 2 _ 2 rfl) (Head.loadCol_val arg9 harg9 xs2 Lp hL 2 _ 2 rfl)))
    (Head.colPiece 1 1 rfl inb_S2048x4_S2048x1_0_1 (Head.payL_val 1 64 rfl hq hk (Head.payL1 _ _ _ _) (Head.loadCol_val arg8 harg8 xs1 Mp hM 1 _ 1 rfl) (Head.loadCol_val arg9 harg9 xs2 Lp hL 1 _ 1 rfl)))
    (Head.colPiece 0 0 rfl inb_S2048x4_S2048x1_0_0 (Head.payL_val 0 0 rfl hq hk (Head.payL0 _ _ _ _) (Head.loadCol_val arg8 harg8 xs1 Mp hM 0 _ 0 rfl) (Head.loadCol_val arg9 harg9 xs2 Lp hL 0 _ 0 rfl)))

include hQ hK hV hM hL hA in
theorem sA_C_val (n : Fin 2048) (e : Fin 256) :
    sA_C c i arg3 harg3 arg4 harg4 arg5 harg5 arg6 harg6 arg7 harg7 arg8 harg8 arg9 harg9 arg10 harg10 hc0 hc1 x0 x1 x2 xs0 xs1 xs2 xs3 (ix2 n e) = ((aNew Qs Kb Vb Mp Ap n e : ℝ) : EReal) := by
  unfold sA_C
  rw [View.read_writes_junk_eq_canon]
  have hcov := (covers_C c i arg3 harg3 arg4 harg4 arg5 harg5 arg6 harg6 arg7 harg7 arg8 harg8 arg9 harg9 arg10 harg10 hc0 hc1 x0 x1 x2 xs0 xs1 xs2 xs3).2.2.2 (ix2 n e)
  revert hcov
  unfold kernelRun1_C
  dsimp only
  sl_unfold_words
  intro hcov
  have hq := Head.loadQ_val arg7 harg7 xs0 Qs hQ
  have hk := Head.loadK_val arg4 harg4 x1 Kb hK
  have hv := Head.loadK_val arg5 harg5 x2 Vb hV
  exact Head.canon4 hcov (Head.gAcc (aNew Qs Kb Vb Mp Ap))
    (Head.accPiece 3 192 rfl inb_S2048x256_S2048x64_0_192 (Head.payA_val 3 192 rfl hq hk hv (Head.payA3 _ _ _ _ _) (Head.loadCol_val arg8 harg8 xs1 Mp hM 3 _ 3 rfl) (Head.loadAcc_val arg10 harg10 xs3 Ap hA 192 _ 3 rfl)))
    (Head.accPiece 2 128 rfl inb_S2048x256_S2048x64_0_128 (Head.payA_val 2 128 rfl hq hk hv (Head.payA2 _ _ _ _ _) (Head.loadCol_val arg8 harg8 xs1 Mp hM 2 _ 2 rfl) (Head.loadAcc_val arg10 harg10 xs3 Ap hA 128 _ 2 rfl)))
    (Head.accPiece 1 64 rfl inb_S2048x256_S2048x64_0_64 (Head.payA_val 1 64 rfl hq hk hv (Head.payA1 _ _ _ _ _) (Head.loadCol_val arg8 harg8 xs1 Mp hM 1 _ 1 rfl) (Head.loadAcc_val arg10 harg10 xs3 Ap hA 64 _ 1 rfl)))
    (Head.accPiece 0 0 rfl inb_S2048x256_S2048x64_0_0 (Head.payA_val 0 0 rfl hq hk hv (Head.payA0 _ _ _ _ _) (Head.loadCol_val arg8 harg8 xs1 Mp hM 0 _ 0 rfl) (Head.loadAcc_val arg10 harg10 xs3 Ap hA 0 _ 0 rfl)))

include hQ hK hV hM hL hA in
theorem sO_C_val (hLn : ∀ n h, lNew Qs Kb Mp Lp n h ≠ 0) (n : Fin 2048) (e : Fin 256) :
    sO_C c i arg3 harg3 arg4 harg4 arg5 harg5 arg6 harg6 arg7 harg7 arg8 harg8 arg9 harg9 arg10 harg10 hc0 hc1 x0 x1 x2 xs0 xs1 xs2 xs3 (ix3 (0 : Fin 1) n e) = ((oNew Qs Kb Vb Mp Lp Ap n e : ℝ) : EReal) := by
  have hA' : ∀ (n : Fin 2048) (e : Fin 256), View.canon (kernelRun1_C c i arg3 harg3 arg4 harg4 arg5 harg5 arg6 harg6 arg7 harg7 arg8 harg8 arg9 harg9 arg10 harg10 hc0 hc1 x0 x1 x2 xs0 xs1 xs2 xs3).2.2.2.1 (ix2 n e) = ((aNew Qs Kb Vb Mp Ap n e : ℝ) : EReal) := fun n e => by
    have h : sA_C c i arg3 harg3 arg4 harg4 arg5 harg5 arg6 harg6 arg7 harg7 arg8 harg8 arg9 harg9 arg10 harg10 hc0 hc1 x0 x1 x2 xs0 xs1 xs2 xs3 (ix2 n e) = _ := sA_C_val hQ hK hV hM hL hA n e
    unfold sA_C at h
    rwa [View.read_writes_junk_eq_canon] at h
  have hL' : ∀ (n : Fin 2048) (h : Fin 4), View.canon (kernelRun1_C c i arg3 harg3 arg4 harg4 arg5 harg5 arg6 harg6 arg7 harg7 arg8 harg8 arg9 harg9 arg10 harg10 hc0 hc1 x0 x1 x2 xs0 xs1 xs2 xs3).2.2.1 (ix2 n h) = ((lNew Qs Kb Mp Lp n h : ℝ) : EReal) := fun n h => by
    have h' : sL_C c i arg3 harg3 arg4 harg4 arg5 harg5 arg6 harg6 arg7 harg7 arg8 harg8 arg9 harg9 arg10 harg10 hc0 hc1 x0 x1 x2 xs0 xs1 xs2 xs3 (ix2 n h) = _ := sL_C_val hQ hK hV hM hL hA n h
    unfold sL_C at h'
    rwa [View.read_writes_junk_eq_canon] at h'
  unfold sO_C
  rw [View.read_writes_junk_eq_canon]
  revert hA' hL'
  unfold kernelRun1_C
  dsimp only
  sl_unfold_words
  intro hA' hL'
  exact PieceC.outPiece_val arg10 arg9 _ _ (aNew Qs Kb Vb Mp Ap) (lNew Qs Kb Mp Lp) hLn hA' hL' n e

end Cert.KernelIdeal.Hand

end
-- ==== Proof.Math.Group.lean ====
/- The block recursion of one head group over its four key blocks ends at the plain softmax-weighted sum. -/
import proofs.«401092_j26680336843340_3_alg».proof.Proof.LibStreamSoftmax
import proofs.«401092_j26680336843340_3_alg».proof.Proof.Spec
import proofs.«401092_j26680336843340_3_alg».proof.Proof.KI.R1Spec

noncomputable section

open scoped BigOperators

namespace Cert.GroupMath

open Cert.BlockSpec Cert.GroupSpec Cert.Spec Cert.FlashMath

def gcol (j : Fin 3) (e : Fin 256) : Fin 768 := ⟨j.val * 256 + e.val, by have := j.isLt; have := e.isLt; omega⟩

theorem qcol_eq (j : Fin 3) (e : Fin 256) (dd : Fin 64) :
    qcol (headOf (gcol j e)) dd = qc j (col4 (head4 e) dd) := by
  apply Fin.ext
  show (j.val * 256 + e.val) / 64 * 64 + dd.val = j.val * 256 + (e.val / 64 * 64 + dd.val)
  omega

theorem kcol_eq (j : Fin 3) (e : Fin 256) (dd : Fin 64) :
    kcol (headOf (gcol j e)) dd = kc j (col4 (head4 e) dd) := by
  apply Fin.ext
  show 768 + ((j.val * 256 + e.val) / 64 * 64 + dd.val) = 768 + (j.val * 256 + (e.val / 64 * 64 + dd.val))
  omega

theorem vcol_eq (j : Fin 3) (e : Fin 256) :
    vcol (headOf (gcol j e)) (laneOf (gcol j e)) = vc j e := by
  apply Fin.ext
  show 1536 + ((j.val * 256 + e.val) / 64 * 64 + (j.val * 256 + e.val) % 64) = 1536 + (j.val * 256 + e.val)
  omega

section Group

variable (P : Fin 4 → Fin 2048 → Fin 2304 → ℝ) (b : Fin 4) (j : Fin 3) (negR : ℝ) (n : Fin 2048)

def sBlk (h : Fin 4) : ℕ → Fin 512 → ℝ := fun k jj => score (Qs (P b) j) (Kb (P b) j k) n h jj

def mSeq (h : Fin 4) : ℕ → ℝ := fun k => stM (P b) j negR k n h

def vBlk (e : Fin 256) : ℕ → Fin 512 → ℝ := fun k jj => Vb (P b) j k jj e

theorem stL_eq (h : Fin 4) (k : ℕ) :
    stL (P b) j negR k n h = lSeq (sBlk P b j n h) (mSeq P b j negR n h) k := by
  induction k with
  | zero => rfl
  | succ k ih =>
    show Real.exp (stM (P b) j negR k n h - stM (P b) j negR (k + 1) n h) * stL (P b) j negR k n h
        + ∑ jj : Fin 512, Real.exp (score (Qs (P b) j) (Kb (P b) j k) n h jj - stM (P b) j negR (k + 1) n h) = _
    rw [ih]; rfl

theorem stA_eq (e : Fin 256) (k : ℕ) :
    stA (P b) j negR k n e = aSeq (sBlk P b j n (head4 e)) (vBlk P b j e) (mSeq P b j negR n (head4 e)) k := by
  induction k with
  | zero => rfl
  | succ k ih =>
    show Real.exp (stM (P b) j negR k n (head4 e) - stM (P b) j negR (k + 1) n (head4 e)) * stA (P b) j negR k n e
        + ∑ jj : Fin 512, Real.exp (score (Qs (P b) j) (Kb (P b) j k) n (head4 e) jj
            - stM (P b) j negR (k + 1) n (head4 e)) * Vb (P b) j k jj e = _
    rw [ih]; rfl

theorem score_eq (e : Fin 256) (k : ℕ) (jj : Fin 512) :
    score (Qs (P b) j) (Kb (P b) j k) n (head4 e) jj = scoreR P b (headOf (gcol j e)) n (krow k jj) := by
  have h := scale_sum Finset.univ (fun dd : Fin 64 => P b n (qcol (headOf (gcol j e)) dd))
    (fun dd : Fin 64 => P b (krow k jj) (kcol (headOf (gcol j e)) dd)) (1 / 8)
  refine Eq.trans ?_ h
  refine Finset.sum_congr rfl fun dd _ => ?_
  show P b n (qc j (col4 (head4 e) dd)) * (1 / 8) * P b (krow k jj) (kc j (col4 (head4 e) dd)) = _
  rw [qcol_eq, kcol_eq]

theorem den_eq (e : Fin 256) :
    (∑ k ∈ Finset.range 4, ∑ jj : Fin 512, Real.exp (sBlk P b j n (head4 e) k jj))
      = ∑ J : Fin 2048, Real.exp (scoreR P b (headOf (gcol j e)) n J) := by
  rw [← sum_blocks (fun J => Real.exp (scoreR P b (headOf (gcol j e)) n J))]
  refine Finset.sum_congr rfl fun k _ => Finset.sum_congr rfl fun jj _ => ?_
  show Real.exp (score (Qs (P b) j) (Kb (P b) j k) n (head4 e) jj)
      = Real.exp (scoreR P b (headOf (gcol j e)) n (krow k jj))
  rw [score_eq]

theorem num_eq (e : Fin 256) :
    (∑ k ∈ Finset.range 4, ∑ jj : Fin 512, Real.exp (sBlk P b j n (head4 e) k jj) * vBlk P b j e k jj)
      = ∑ J : Fin 2048, Real.exp (scoreR P b (headOf (gcol j e)) n J)
          * P b J (vcol (headOf (gcol j e)) (laneOf (gcol j e))) := by
  rw [← sum_blocks (fun J => Real.exp (scoreR P b (headOf (gcol j e)) n J)
          * P b J (vcol (headOf (gcol j e)) (laneOf (gcol j e))))]
  refine Finset.sum_congr rfl fun k _ => Finset.sum_congr rfl fun jj _ => ?_
  show Real.exp (score (Qs (P b) j) (Kb (P b) j k) n (head4 e) jj) * P b (krow k jj) (vc j e)
      = Real.exp (scoreR P b (headOf (gcol j e)) n (krow k jj))
          * P b (krow k jj) (vcol (headOf (gcol j e)) (laneOf (gcol j e)))
  rw [score_eq, vcol_eq]

theorem outG_den_pos (h : Fin 4) : 0 < stL (P b) j negR 4 n h := by
  rw [stL_eq]
  exact lSeq_pos _ _ 4 (by decide)

theorem outG_eq (e : Fin 256) :
    outG (P b) j negR n e
      = attnFlat P b n ⟨j.val * 256 + e.val, by have := j.isLt; have := e.isLt; omega⟩ := by
  have h0 : outG (P b) j negR n e = stA (P b) j negR 4 n e / stL (P b) j negR 4 n (head4 e) := rfl
  rw [h0, stA_eq, stL_eq, stream_eq, num_eq, den_eq]
  rfl

end Group

end Cert.GroupMath

end
-- ==== Proof.KI.Val1.lean ====
/- The attention region's output array, entry by entry, by induction on the grid point over the block recursion. -/
import proofs.«401092_j26680336843340_3_alg».proof.Proof.KI.R1PieceA
import proofs.«401092_j26680336843340_3_alg».proof.Proof.KI.R1PieceB
import proofs.«401092_j26680336843340_3_alg».proof.Proof.KI.R1PieceC
import proofs.«401092_j26680336843340_3_alg».proof.Proof.Math.Group
import proofs.«401092_j26680336843340_3_alg».proof.Proof.LibStreamSoftmax
import Idealize.ShloMosaic.Lib.Pipeline.Value
import Idealize.ShloMosaic.Lib.ValueIdx
import Mathlib.Data.EReal.Basic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

namespace Val1

open Cert.BlockSpec Cert.GroupSpec

theorem stM_one (Pb : Fin 2048 → Fin 2304 → ℝ) (j : Fin 3) (negR : ℝ) :
    Cert.GroupSpec.stM Pb j negR (0 + 1) = mNew (fun n e => Pb n (qc j e) * (1 / 8)) (Cert.GroupSpec.Kb Pb j 0) (fun _ _ => negR) := rfl
theorem stL_one (Pb : Fin 2048 → Fin 2304 → ℝ) (j : Fin 3) (negR : ℝ) :
    Cert.GroupSpec.stL Pb j negR (0 + 1) = lNew (fun n e => Pb n (qc j e) * (1 / 8)) (Cert.GroupSpec.Kb Pb j 0) (fun _ _ => negR) (fun _ _ => 0) := rfl
theorem stA_one (Pb : Fin 2048 → Fin 2304 → ℝ) (j : Fin 3) (negR : ℝ) :
    Cert.GroupSpec.stA Pb j negR (0 + 1) = aNew (fun n e => Pb n (qc j e) * (1 / 8)) (Cert.GroupSpec.Kb Pb j 0) (Cert.GroupSpec.Vb Pb j 0) (fun _ _ => negR) (fun _ _ => 0) := rfl
theorem stM_succ (Pb : Fin 2048 → Fin 2304 → ℝ) (j : Fin 3) (negR : ℝ) (k : ℕ) :
    Cert.GroupSpec.stM Pb j negR (k + 1) = mNew (Cert.GroupSpec.Qs Pb j) (Cert.GroupSpec.Kb Pb j k) (Cert.GroupSpec.stM Pb j negR k) := rfl
theorem stL_succ (Pb : Fin 2048 → Fin 2304 → ℝ) (j : Fin 3) (negR : ℝ) (k : ℕ) :
    Cert.GroupSpec.stL Pb j negR (k + 1) = lNew (Cert.GroupSpec.Qs Pb j) (Cert.GroupSpec.Kb Pb j k) (Cert.GroupSpec.stM Pb j negR k) (Cert.GroupSpec.stL Pb j negR k) := rfl
theorem stA_succ (Pb : Fin 2048 → Fin 2304 → ℝ) (j : Fin 3) (negR : ℝ) (k : ℕ) :
    Cert.GroupSpec.stA Pb j negR (k + 1) = aNew (Cert.GroupSpec.Qs Pb j) (Cert.GroupSpec.Kb Pb j k) (Cert.GroupSpec.Vb Pb j k) (Cert.GroupSpec.stM Pb j negR k) (Cert.GroupSpec.stA Pb j negR k) := rfl
theorem outG_def (Pb : Fin 2048 → Fin 2304 → ℝ) (j : Fin 3) (negR : ℝ) :
    Cert.GroupSpec.outG Pb j negR = oNew (Cert.GroupSpec.Qs Pb j) (Cert.GroupSpec.Kb Pb j (2 + 1)) (Cert.GroupSpec.Vb Pb j (2 + 1)) (Cert.GroupSpec.stM Pb j negR (2 + 1)) (Cert.GroupSpec.stL Pb j negR (2 + 1)) (Cert.GroupSpec.stA Pb j negR (2 + 1)) := rfl

theorem idx1 : ∀ t : Fin cfg1.N,
    win1_0.index t (0 : Fin 3) = t.val / 12 ∧ win1_0.index t (1 : Fin 3) = 0 ∧ win1_0.index t (2 : Fin 3) = (t.val / 4) % 3
    ∧ win1_1.index t (0 : Fin 3) = t.val / 12 ∧ win1_1.index t (1 : Fin 3) = t.val % 4 ∧ win1_1.index t (2 : Fin 3) = 3 + (t.val / 4) % 3
    ∧ win1_2.index t (0 : Fin 3) = t.val / 12 ∧ win1_2.index t (1 : Fin 3) = t.val % 4 ∧ win1_2.index t (2 : Fin 3) = 6 + (t.val / 4) % 3
    ∧ win1_3.index t (0 : Fin 3) = t.val / 12 ∧ win1_3.index t (1 : Fin 3) = 0 ∧ win1_3.index t (2 : Fin 3) = (t.val / 4) % 3 :=
  (by decide +kernel : ∀ t : Fin grid1.N, _)

variable (V : (c : Dev nD) → (b : Ref sig .tc) → Buf (Elt Ideal) ((c : Thread nD τ).loc b))

theorem iblk1_0_apply (c : Dev nD) (t : Fin cfg1.N) (b : Fin 4) (j : Fin 3) (hb : b.val = t.val / 12) (hj : j.val = (t.val / 4) % 3)
    (n : Fin 2048) (e : Fin 256) :
    (iblk1 V c 0 t : S1x2048x256.Idx → EReal) (ix3 (0 : Fin 1) n e)
      = (V c main_v2 : S4x2048x2304.Idx → EReal) (ix3 b n (Cert.GroupSpec.qc j e)) := by
  obtain ⟨e0, e1, e2, -⟩ := idx1 t
  unfold iblk1
  rw [View.read_apply]
  show V c main_v2 (((cfg1.win 0).blk t).view.emb (ix3 (0 : Fin 1) n e)) = V c main_v2 (ix3 b n (Cert.GroupSpec.qc j e))
  refine congrArg (V c main_v2) ?_
  funext a
  apply Fin.ext
  match a with
  | ⟨0, _⟩ => show win1_0.index t (0 : Fin 3) * 1 + 1 * 0 = b.val; omega
  | ⟨1, _⟩ => show win1_0.index t (1 : Fin 3) * 2048 + 1 * n.val = n.val; omega
  | ⟨2, _⟩ => show win1_0.index t (2 : Fin 3) * 256 + 1 * e.val = j.val * 256 + e.val; omega

theorem iblk1_1_apply (c : Dev nD) (t : Fin cfg1.N) (b : Fin 4) (j : Fin 3) (kv : ℕ) (hb : b.val = t.val / 12) (hj : j.val = (t.val / 4) % 3)
    (hkv : kv = t.val % 4) (jj : Fin 512) (e : Fin 256) :
    (iblk1 V c 1 t : S1x512x256.Idx → EReal) (ix3 (0 : Fin 1) jj e)
      = (V c main_v2 : S4x2048x2304.Idx → EReal) (ix3 b (Cert.GroupSpec.krow kv jj) (Cert.GroupSpec.kc j e)) := by
  obtain ⟨-, -, -, e3, e4, e5, -⟩ := idx1 t
  unfold iblk1
  rw [View.read_apply]
  show V c main_v2 (((cfg1.win 1).blk t).view.emb (ix3 (0 : Fin 1) jj e)) = V c main_v2 (ix3 b (Cert.GroupSpec.krow kv jj) (Cert.GroupSpec.kc j e))
  refine congrArg (V c main_v2) ?_
  funext a
  apply Fin.ext
  match a with
  | ⟨0, _⟩ => show win1_1.index t (0 : Fin 3) * 1 + 1 * 0 = b.val; omega
  | ⟨1, _⟩ => show win1_1.index t (1 : Fin 3) * 512 + 1 * jj.val = kv % 4 * 512 + jj.val; omega
  | ⟨2, _⟩ => show win1_1.index t (2 : Fin 3) * 256 + 1 * e.val = 768 + (j.val * 256 + e.val); omega

theorem iblk1_2_apply (c : Dev nD) (t : Fin cfg1.N) (b : Fin 4) (j : Fin 3) (kv : ℕ) (hb : b.val = t.val / 12) (hj : j.val = (t.val / 4) % 3)
    (hkv : kv = t.val % 4) (jj : Fin 512) (e : Fin 256) :
    (iblk1 V c 2 t : S1x512x256.Idx → EReal) (ix3 (0 : Fin 1) jj e)
      = (V c main_v2 : S4x2048x2304.Idx → EReal) (ix3 b (Cert.GroupSpec.krow kv jj) (Cert.GroupSpec.vc j e)) := by
  obtain ⟨-, -, -, -, -, -, e6, e7, e8, -⟩ := idx1 t
  unfold iblk1
  rw [View.read_apply]
  show V c main_v2 (((cfg1.win 2).blk t).view.emb (ix3 (0 : Fin 1) jj e)) = V c main_v2 (ix3 b (Cert.GroupSpec.krow kv jj) (Cert.GroupSpec.vc j e))
  refine congrArg (V c main_v2) ?_
  funext a
  apply Fin.ext
  match a with
  | ⟨0, _⟩ => show win1_2.index t (0 : Fin 3) * 1 + 1 * 0 = b.val; omega
  | ⟨1, _⟩ => show win1_2.index t (1 : Fin 3) * 512 + 1 * jj.val = kv % 4 * 512 + jj.val; omega
  | ⟨2, _⟩ => show win1_2.index t (2 : Fin 3) * 256 + 1 * e.val = 1536 + (j.val * 256 + e.val); omega

def Inv1 (c : Dev nD) (P : Fin 4 → Fin 2048 → Fin 2304 → ℝ) (negR : ℝ) (k : ℕ) (hk : k < cfg1.N) (b : Fin 4) (j : Fin 3) (kv : ℕ) : Prop :=
  (∀ n e, ((outsAt1 V c k hk).q : S1x2048x256.Idx → EReal) (ix3 (0 : Fin 1) n e) = ((Cert.GroupSpec.Qs (P b) j n e : ℝ) : EReal))
  ∧ (∀ n h, ((outsAt1 V c k hk).m : S2048x4.Idx → EReal) (ix2 n h) = ((Cert.GroupSpec.stM (P b) j negR (kv + 1) n h : ℝ) : EReal))
  ∧ (∀ n h, ((outsAt1 V c k hk).l : S2048x4.Idx → EReal) (ix2 n h) = ((Cert.GroupSpec.stL (P b) j negR (kv + 1) n h : ℝ) : EReal))
  ∧ (∀ n e, ((outsAt1 V c k hk).a : S2048x256.Idx → EReal) (ix2 n e) = ((Cert.GroupSpec.stA (P b) j negR (kv + 1) n e : ℝ) : EReal))
  ∧ (kv = 3 → ∀ n e, ((outsAt1 V c k hk).out : S1x2048x256.Idx → EReal) (ix3 (0 : Fin 1) n e) = ((Cert.GroupSpec.outG (P b) j negR n e : ℝ) : EReal))

theorem inv1 (c : Dev nD) (P : Fin 4 → Fin 2048 → Fin 2304 → ℝ)
    (hP : ∀ b n e, (V c main_v2 : S4x2048x2304.Idx → EReal) (ix3 b n e) = ((P b n e : ℝ) : EReal))
    (negR : ℝ) (hneg : Ideal.ofBits .f32 0xFF333332#32 = ((negR : ℝ) : EReal)) :
    ∀ (k : ℕ) (t : Fin cfg1.N), t.val = k → ∀ (b : Fin 4) (j : Fin 3) (kv : ℕ), b.val = t.val / 12 → j.val = (t.val / 4) % 3 → kv = t.val % 4 →
      Inv1 V c P negR t.val t.isLt b j kv := by
  intro k
  induction k using Nat.strong_induction_on with
  | _ k ih =>
    intro t htk b j kv hb hj hkv
    have hX : ∀ n e, (iblk1 V c 0 t : S1x2048x256.Idx → EReal) (ix3 (0 : Fin 1) n e) = ((P b n (Cert.GroupSpec.qc j e) : ℝ) : EReal) :=
      fun n e => (iblk1_0_apply V c t b j hb hj n e).trans (hP b n (Cert.GroupSpec.qc j e))
    have hK : ∀ jj e, (iblk1 V c 1 t : S1x512x256.Idx → EReal) (ix3 (0 : Fin 1) jj e) = ((Cert.GroupSpec.Kb (P b) j kv jj e : ℝ) : EReal) :=
      fun jj e => (iblk1_1_apply V c t b j kv hb hj hkv jj e).trans (hP b (Cert.GroupSpec.krow kv jj) (Cert.GroupSpec.kc j e))
    have hV : ∀ jj e, (iblk1 V c 2 t : S1x512x256.Idx → EReal) (ix3 (0 : Fin 1) jj e) = ((Cert.GroupSpec.Vb (P b) j kv jj e : ℝ) : EReal) :=
      fun jj e => (iblk1_2_apply V c t b j kv hb hj hkv jj e).trans (hP b (Cert.GroupSpec.krow kv jj) (Cert.GroupSpec.vc j e))
    by_cases h0 : t.val % 4 = 0
    ·
      have h1 : ¬t.val % 4 = 3 := by omega
      obtain rfl : kv = 0 := by omega
      have hst := outsAt1_A V c t h0 h1
      unfold Inv1
      refine ⟨fun n e => ?_, fun n h => ?_, fun n h => ?_, fun n e => ?_, fun h3 => absurd h3 (by decide)⟩
      · rw [hst]; dsimp only [stA]
        exact sQ_A_val hneg hX hK hV n e
      · rw [hst]; dsimp only [stA]
        refine (sM_A_val hneg hX hK hV n h).trans ?_
        exact congrArg (fun f : Fin 2048 → Fin 4 → ℝ => ((f n h : ℝ) : EReal)) (stM_one (P b) j negR).symm
      · rw [hst]; dsimp only [stA]
        refine (sL_A_val hneg hX hK hV n h).trans ?_
        exact congrArg (fun f : Fin 2048 → Fin 4 → ℝ => ((f n h : ℝ) : EReal)) (stL_one (P b) j negR).symm
      · rw [hst]; dsimp only [stA]
        refine (sA_A_val hneg hX hK hV n e).trans ?_
        exact congrArg (fun f : Fin 2048 → Fin 256 → ℝ => ((f n e : ℝ) : EReal)) (stA_one (P b) j negR).symm
    ·
      have hk' : t.val - 1 < cfg1.N := Nat.lt_of_le_of_lt (Nat.sub_le _ _) t.isLt
      obtain ⟨kv', rfl⟩ : ∃ kv', kv = kv' + 1 := ⟨kv - 1, by omega⟩
      have ihp : Inv1 V c P negR (t.val - 1) hk' b j kv' :=
        ih (t.val - 1) (by omega) ⟨t.val - 1, hk'⟩ rfl b j kv' (by show b.val = (t.val - 1) / 12; omega)
          (by show j.val = (t.val - 1) / 4 % 3; omega) (by show kv' = (t.val - 1) % 4; omega)
      obtain ⟨iq, im, il, ia, -⟩ := ihp
      by_cases h3 : t.val % 4 = 3
      ·
        have hst := outsAt1_C V c t h0 h3
        unfold Inv1
        refine ⟨fun n e => ?_, fun n h => ?_, fun n h => ?_, fun n e => ?_, fun hk3 n e => ?_⟩
        · rw [hst]; dsimp only [stC]; exact iq n e
        · rw [hst]; dsimp only [stC]
          refine (sM_C_val iq hK hV im il ia n h).trans ?_
          exact congrArg (fun f : Fin 2048 → Fin 4 → ℝ => ((f n h : ℝ) : EReal)) (stM_succ (P b) j negR (kv' + 1)).symm
        · rw [hst]; dsimp only [stC]
          refine (sL_C_val iq hK hV im il ia n h).trans ?_
          exact congrArg (fun f : Fin 2048 → Fin 4 → ℝ => ((f n h : ℝ) : EReal)) (stL_succ (P b) j negR (kv' + 1)).symm
        · rw [hst]; dsimp only [stC]
          refine (sA_C_val iq hK hV im il ia n e).trans ?_
          exact congrArg (fun f : Fin 2048 → Fin 256 → ℝ => ((f n e : ℝ) : EReal)) (stA_succ (P b) j negR (kv' + 1)).symm
        ·
          have e2 : kv' = 2 := by omega
          have hLn : ∀ n h, Cert.BlockSpec.lNew (Cert.GroupSpec.Qs (P b) j) (Cert.GroupSpec.Kb (P b) j (kv' + 1)) (Cert.GroupSpec.stM (P b) j negR (kv' + 1)) (Cert.GroupSpec.stL (P b) j negR (kv' + 1)) n h ≠ 0 := by
            subst e2
            exact fun n h => (Cert.GroupMath.outG_den_pos P b j negR n h).ne'
          rw [hst]; dsimp only [stC]
          refine (sO_C_val iq hK hV im il ia hLn n e).trans ?_
          subst e2
          exact congrArg (fun f : Fin 2048 → Fin 256 → ℝ => ((f n e : ℝ) : EReal)) (outG_def (P b) j negR).symm
      ·
        have hst := outsAt1_B V c t h0 h3
        unfold Inv1
        refine ⟨fun n e => ?_, fun n h => ?_, fun n h => ?_, fun n e => ?_, fun hk3 => absurd (hkv.symm.trans hk3) h3⟩
        · rw [hst]; dsimp only [stB]; exact iq n e
        · rw [hst]; dsimp only [stB]
          refine (sM_B_val iq hK hV im il ia n h).trans ?_
          exact congrArg (fun f : Fin 2048 → Fin 4 → ℝ => ((f n h : ℝ) : EReal)) (stM_succ (P b) j negR (kv' + 1)).symm
        · rw [hst]; dsimp only [stB]
          refine (sL_B_val iq hK hV im il ia n h).trans ?_
          exact congrArg (fun f : Fin 2048 → Fin 4 → ℝ => ((f n h : ℝ) : EReal)) (stL_succ (P b) j negR (kv' + 1)).symm
        · rw [hst]; dsimp only [stB]
          refine (sA_B_val iq hK hV im il ia n e).trans ?_
          exact congrArg (fun f : Fin 2048 → Fin 256 → ℝ => ((f n e : ℝ) : EReal)) (stA_succ (P b) j negR (kv' + 1)).symm

def G1 (P : Fin 4 → Fin 2048 → Fin 2304 → ℝ) : S4x2048x768.Idx → EReal :=
  fun i => ((Cert.Spec.attnFlat P (i 0) (i 1) (i 2) : ℝ) : EReal)

theorem emb1_3 (t : Fin cfg1.N) (b : Fin 4) (j : Fin 3) (hb : b.val = t.val / 12) (hj : j.val = (t.val / 4) % 3) (n : Fin 2048) (e : Fin 256) :
    (((cfg1.win 3).blk t).view.emb (ix3 (0 : Fin 1) n e) : S4x2048x768.Idx)
      = ix3 b n (⟨j.val * 256 + e.val, by have := j.isLt; have := e.isLt; omega⟩ : Fin 768) := by
  obtain ⟨-, -, -, -, -, -, -, -, -, e9, e10, e11⟩ := idx1 t
  funext a
  apply Fin.ext
  match a with
  | ⟨0, _⟩ => show win1_3.index t (0 : Fin 3) * 1 + 1 * 0 = b.val; omega
  | ⟨1, _⟩ => show win1_3.index t (1 : Fin 3) * 2048 + 1 * n.val = n.val; omega
  | ⟨2, _⟩ => show win1_3.index t (2 : Fin 3) * 256 + 1 * e.val = j.val * 256 + e.val; omega

theorem flushed1_eq (c : Dev nD) (P : Fin 4 → Fin 2048 → Fin 2304 → ℝ)
    (hP : ∀ b n e, (V c main_v2 : S4x2048x2304.Idx → EReal) (ix3 b n e) = ((P b n e : ℝ) : EReal))
    (t : Fin cfg1.N) (hf : (cfg1.win 3).flush t = true) :
    (dat1 V c).flushed 3 t = ((cfg1.win 3).blk t).view.read (Elt Ideal) (G1 P) := by
  have h3 : t.val % 4 = 3 := (flush1_3 t).mp hf
  have hN : cfg1.N = 48 := N_1
  have htlt : t.val < 48 := by have := t.isLt; omega
  obtain ⟨negR, hneg⟩ := Cert.FlashMath.negBig
  obtain ⟨b, hb⟩ : ∃ b : Fin 4, b.val = t.val / 12 := ⟨⟨t.val / 12, by omega⟩, rfl⟩
  obtain ⟨j, hj⟩ : ∃ j : Fin 3, j.val = (t.val / 4) % 3 := ⟨⟨(t.val / 4) % 3, by omega⟩, rfl⟩
  obtain ⟨-, -, -, -, ho⟩ := inv1 V c P hP negR hneg t.val t rfl b j (t.val % 4) hb hj rfl
  show (cfg1.win 3).cut (grid1.coords t) ((dat1 V c).after 3 t) = _
  rw [after1_3]
  funext y
  obtain ⟨z, n, e, rfl⟩ : ∃ (z : Fin 1) (n : Fin 2048) (e : Fin 256), y = ix3 z n e := ⟨y 0, y 1, y 2, eq_ix3 y⟩
  obtain rfl : z = 0 := Subsingleton.elim _ _
  rw [View.read_apply]
  show ((outsAt1 V c t.val t.isLt).out : S1x2048x256.Idx → EReal) (ix3 (0 : Fin 1) n e) = G1 P (((cfg1.win 3).blk t).view.emb (ix3 (0 : Fin 1) n e))
  refine (ho h3 n e).trans ?_
  rw [emb1_3 t b j hb hj n e, Cert.GroupMath.outG_eq P b j negR n e]
  rfl

theorem mem_blk1_3 (t : Fin cfg1.N) (i : S4x2048x768.Idx) :
    i ∈ ((cfg1.win 3).blk t).view.set ↔ ∀ a : Fin 3, win1_3.index t a * S1x2048x256.size a ≤ (i a).val ∧ (i a).val < win1_3.index t a * S1x2048x256.size a + S1x2048x256.size a := by
  show i ∈ ((View.whole main_v3).slice (win1_3.rect t)).set ↔ _
  rw [View.set_slice_whole, Rect.mem_set_unit]
  exact Iff.rfl

theorem cover1_3 (i : S4x2048x768.Idx) : ∃ t : Fin cfg1.N, (cfg1.win 3).flush t = true ∧ i ∈ ((cfg1.win 3).blk t).view.set := by
  have hN : cfg1.N = 48 := N_1
  have h0 : (i 0).val < 4 := (i 0).isLt
  have h1 : (i 1).val < 2048 := (i 1).isLt
  have h2 : (i 2).val < 768 := (i 2).isLt
  obtain ⟨t, ht⟩ : ∃ t : Fin cfg1.N, t.val = (i 0).val * 12 + (i 2).val / 256 * 4 + 3 :=
    ⟨⟨(i 0).val * 12 + (i 2).val / 256 * 4 + 3, by omega⟩, rfl⟩
  obtain ⟨-, -, -, -, -, -, -, -, -, e9, e10, e11⟩ := idx1 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 256 ≤ (i 2).val ∧ (i 2).val < win1_3.index t (2 : Fin 3) * 256 + 256; omega

theorem final1 (c : Dev nD) (P : Fin 4 → Fin 2048 → Fin 2304 → ℝ)
    (hP : ∀ b n e, (V c main_v2 : S4x2048x2304.Idx → EReal) (ix3 b n e) = ((P b n e : ℝ) : EReal)) :
    (dat1 V c).arrAt 3 cfg1.N = G1 P :=
  (dat1 V c).arrAt_eq_of_cover 3 (G1 P) (fun t hf => flushed1_eq V c P hP t hf) cover1_3

end Val1

theorem arr1_val (V : (c : Dev nD) → (b : Ref sig .tc) → Buf (Elt Ideal) ((c : Thread nD τ).loc b)) (c : Dev nD) (P : Fin 4 → Fin 2048 → Fin 2304 → ℝ)
    (hP : ∀ b n e, (V c main_v2 : S4x2048x2304.Idx → EReal) (ix3 b n e) = ((P b n e : ℝ) : EReal)) (b : Fin 4) (n : Fin 2048) (e : Fin 768) :
    ((dat1 V c).arrAt 3 cfg1.N : S4x2048x768.Idx → EReal) (ix3 b n e) = ((Cert.Spec.attnFlat P b n e : ℝ) : EReal) :=
  congrFun (Val1.final1 V c P hP) (ix3 b n e)

end Cert.KernelIdeal.Hand

end
-- ==== Proof.KI.Val2.lean ====
/- The output projection region's output array, entry by entry. -/
import proofs.«401092_j26680336843340_3_alg».proof.Proof.KI.Reg2
import proofs.«401092_j26680336843340_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem outproj_lhs_0 (i : S2048x768.Idx) (q : dot_S2048x768_S768x768_S2048x768_1_0_0_1_n_n.contr.Idx) :
    (dot_S2048x768_S768x768_S2048x768_1_0_0_1_n_n.lhsIdx i q 0).val = (i 0).val := by
  unfold DotDims.lhsIdx
  rw [dif_neg (show ¬(0 : Fin S2048x768.rank) ∈ dot_S2048x768_S768x768_S2048x768_1_0_0_1_n_n.lhsBatch by decide), dif_pos (show (0 : Fin S2048x768.rank) ∈ dot_S2048x768_S768x768_S2048x768_1_0_0_1_n_n.lhsNonContracting by decide)]
  rfl

theorem outproj_lhs_1 (i : S2048x768.Idx) (q : dot_S2048x768_S768x768_S2048x768_1_0_0_1_n_n.contr.Idx) :
    (dot_S2048x768_S768x768_S2048x768_1_0_0_1_n_n.lhsIdx i q 1).val = (q ⟨0, by decide⟩).val :=
  dot_S2048x768_S768x768_S2048x768_1_0_0_1_n_n.lhsIdx_val_of_single rfl i q

theorem outproj_rhs_0 (i : S2048x768.Idx) (q : dot_S2048x768_S768x768_S2048x768_1_0_0_1_n_n.contr.Idx) :
    (dot_S2048x768_S768x768_S2048x768_1_0_0_1_n_n.rhsIdx i q 0).val = (q ⟨0, by decide⟩).val :=
  dot_S2048x768_S768x768_S2048x768_1_0_0_1_n_n.rhsIdx_val_of_single rfl i q

theorem outproj_rhs_1 (i : S2048x768.Idx) (q : dot_S2048x768_S768x768_S2048x768_1_0_0_1_n_n.contr.Idx) :
    (dot_S2048x768_S768x768_S2048x768_1_0_0_1_n_n.rhsIdx i q 1).val = (i 1).val := by
  unfold DotDims.rhsIdx
  rw [dif_neg (show ¬(1 : Fin S768x768.rank) ∈ dot_S2048x768_S768x768_S2048x768_1_0_0_1_n_n.rhsBatch by decide), dif_pos (show (1 : Fin S768x768.rank) ∈ dot_S2048x768_S768x768_S2048x768_1_0_0_1_n_n.rhsNonContracting by decide)]
  rfl

theorem pay2_apply (x1 : Vec Ideal S768x768 .f32) (x0 : Vec Ideal S2048x768 .bf16) (x2 : Vec Ideal S768 .f32) (p : Fin 2048) (q : Fin 768) :
    k2_pay1 (F := Ideal) x1 x0 x2 (ix2 p q) = (∑ e : Fin 768, x0 (ix2 p e) * x1 (ix2 e q)) + x2 (ix1 q) := by
  unfold k2_pay1
  rw [addf_apply, broadcastTo_1b_ab_apply, shapeCast_a_1a_apply, shapeCast_self]
  refine congrArg (· + x2 (ix1 q)) ?_
  simp only [matmul]
  rw [Ideal.matmul_constant_zero_apply, ← Equiv.sum_comp (contrEquiv1 dot_S2048x768_S768x768_S2048x768_1_0_0_1_n_n 768 rfl rfl).symm]
  refine Finset.sum_congr rfl fun k _ => ?_
  have hk := contrEquiv1_symm_val dot_S2048x768_S768x768_S2048x768_1_0_0_1_n_n 768 rfl rfl k
  have el : dot_S2048x768_S768x768_S2048x768_1_0_0_1_n_n.lhsIdx (ix2 p q) ((contrEquiv1 dot_S2048x768_S768x768_S2048x768_1_0_0_1_n_n 768 rfl rfl).symm k) = ix2 p k := funext fun a => Fin.ext (by
    match a with
    | ⟨0, _⟩ => exact outproj_lhs_0 _ _
    | ⟨1, _⟩ => exact (outproj_lhs_1 _ _).trans hk)
  have er : dot_S2048x768_S768x768_S2048x768_1_0_0_1_n_n.rhsIdx (ix2 p q) ((contrEquiv1 dot_S2048x768_S768x768_S2048x768_1_0_0_1_n_n 768 rfl rfl).symm k) = ix2 k q := funext fun a => Fin.ext (by
    match a with
    | ⟨0, _⟩ => exact (outproj_rhs_0 _ _).trans hk
    | ⟨1, _⟩ => exact outproj_rhs_1 _ _)
  rw [el, er]
  rfl

theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

theorem blk2_0_apply (c : Dev nD) (t : Fin cfg2.N) (p : Fin 2048) (e : Fin 768) (r : Fin 8192) (hr : r.val = t.val * 2048 + p.val) :
    (iblk2 V c 0 t : Vec Ideal S2048x768 .bf16) (ix2 p e) = (V c main_v4 : S8192x768.Idx → EReal) (ix2 r e) := by
  obtain ⟨h0, h1, -⟩ := idx2_facts t
  unfold iblk2
  rw [View.read_apply]
  show V c main_v4 _ = V c main_v4 _
  congr 1
  funext a
  apply Fin.ext
  match a with
  | ⟨0, _⟩ => show win2_0.index t (0 : Fin 2) * 2048 + 1 * p.val = r.val; rw [h0, hr]; omega
  | ⟨1, _⟩ => show win2_0.index t (1 : Fin 2) * 768 + 1 * e.val = e.val; rw [h1]; omega

theorem blk2_1_apply (c : Dev nD) (t : Fin cfg2.N) (e : Fin 768) (d : Fin 768) :
    (iblk2 V c 1 t : Vec Ideal S768x768 .f32) (ix2 e d) = (V c main_arg2 : S768x768.Idx → EReal) (ix2 e d) := by
  obtain ⟨-, -, h0, h1, -⟩ := idx2_facts t
  unfold iblk2
  rw [View.read_apply]
  show V c main_arg2 _ = V c main_arg2 _
  congr 1
  funext a
  apply Fin.ext
  match a with
  | ⟨0, _⟩ => show win2_1.index t (0 : Fin 2) * 768 + 1 * e.val = e.val; rw [h0]; omega
  | ⟨1, _⟩ => show win2_1.index t (1 : Fin 2) * 768 + 1 * d.val = d.val; rw [h1]; omega

theorem blk2_2_apply (c : Dev nD) (t : Fin cfg2.N) (d : Fin 768) :
    (iblk2 V c 2 t : Vec Ideal S768 .f32) (ix1 d) = (V c main_arg3 : S768.Idx → EReal) (ix1 d) := by
  obtain ⟨-, -, -, -, h0, -⟩ := idx2_facts t
  unfold iblk2
  rw [View.read_apply]
  show V c main_arg3 _ = V c main_arg3 _
  congr 1
  funext a
  apply Fin.ext
  match a with
  | ⟨0, _⟩ => show win2_2.index t (0 : Fin 1) * 768 + 1 * d.val = d.val; rw [h0]; omega

def outprojAt (a : S8192x768.Idx → EReal) (w : S768x768.Idx → EReal) (b : S768.Idx → EReal) (r : Fin 8192) (d : Fin 768) : EReal :=
  (∑ e : Fin 768, a (ix2 r e) * w (ix2 e d)) + b (ix1 d)

def outprojG (a : S8192x768.Idx → EReal) (w : S768x768.Idx → EReal) (b : S768.Idx → EReal) : S8192x768.Idx → EReal :=
  fun i => outprojAt a w b ⟨(i 0).val, idx2_lt0 i⟩ ⟨(i 1).val, idx2_lt1 i⟩

theorem hz2 : (![0, 0] : Fin 2 → Nat) = fun _ => 0 := funext fun a => by fin_cases a <;> rfl
theorem hz1 : (![0] : Fin 1 → Nat) = fun _ => 0 := funext fun a => by fin_cases a <;> rfl

theorem flushed2_3_eq (c : Dev nD) (t : Fin cfg2.N) :
    (dat2 V c).flushed 3 t = ((cfg2.win 3).blk t).view.read (Elt Ideal) (outprojG (V c main_v4) (V c main_arg2) (V c main_arg3)) := by
  show (cfg2.win 3).cut (grid2.coords t) ((dat2 V c).after 3 t) = _
  rw [after2_3]
  unfold out2_3
  rw [View.canon_unit_zero hz2]
  simp only [View.ld_unit_zero (S := S2048x768) hz2, View.ld_unit_zero (S := S768x768) hz2, View.ld_unit_zero (S := S768) hz1]
  refine funext fun (j : S2048x768.Idx) => ?_
  obtain ⟨p, q, rfl⟩ : ∃ (p : Fin 2048) (q : Fin 768), j = ix2 p q := ⟨j 0, j 1, eq_ix2 j⟩
  obtain ⟨-, -, -, -, -, h0, h1⟩ := idx2_facts t
  have ht : t.val < 4 := lt_of_lt_of_eq t.isLt N_2
  have hrow : t.val * 2048 + p.val < 8192 := by have := p.isLt; omega
  have hemb : ((cfg2.win 3).blk t).view.emb (ix2 p q) = (ix2 (⟨t.val * 2048 + p.val, hrow⟩ : Fin 8192) q : S8192x768.Idx) := by
    funext a
    apply Fin.ext
    match a with
    | ⟨0, _⟩ => show win2_3.index t (0 : Fin 2) * 2048 + 1 * p.val = t.val * 2048 + p.val; rw [h0]; omega
    | ⟨1, _⟩ => show win2_3.index t (1 : Fin 2) * 768 + 1 * q.val = q.val; rw [h1]; omega
  show k2_pay1 (F := Ideal) (iblk2 V c 1 t) (iblk2 V c 0 t) (iblk2 V c 2 t) (ix2 p q)
    = outprojG (V c main_v4) (V c main_arg2) (V c main_arg3) (((cfg2.win 3).blk t).view.emb (ix2 p q))
  rw [hemb]
  refine (pay2_apply _ _ _ p q).trans ?_
  show _ = outprojAt (V c main_v4) (V c main_arg2) (V c main_arg3) ⟨t.val * 2048 + p.val, hrow⟩ q
  unfold outprojAt
  rw [blk2_2_apply V c t q]
  refine congrArg (· + (V c main_arg3 : S768.Idx → EReal) (ix1 q)) (Finset.sum_congr rfl fun e _ => ?_)
  rw [blk2_0_apply V c t p e ⟨t.val * 2048 + p.val, hrow⟩ rfl, blk2_1_apply V c t e q]

theorem mem_blk2_3 (t : Fin cfg2.N) (i : S8192x768.Idx) :
    i ∈ ((cfg2.win 3).blk t).view.set ↔ ∀ a : Fin 2, win2_3.index t a * S2048x768.size a ≤ (i a).val ∧ (i a).val < win2_3.index t a * S2048x768.size a + S2048x768.size a := by
  show i ∈ ((View.whole main_v5).slice (win2_3.rect t)).set ↔ _
  rw [View.set_slice_whole, Rect.mem_set_unit]
  exact Iff.rfl

theorem cover2_3_arr (i : S8192x768.Idx) :
    ∃ t : Fin cfg2.N, (cfg2.win 3).flush t = true ∧ i ∈ ((cfg2.win 3).blk t).view.set := by
  have hi0 : (i 0).val < 8192 := idx2_lt0 i
  have hi1 : (i 1).val < 768 := idx2_lt1 i
  have hq : (i 0).val / 2048 < cfg2.N := lt_of_lt_of_eq (show (i 0).val / 2048 < 4 by omega) N_2.symm
  obtain ⟨-, -, -, -, -, h0, h1⟩ := idx2_facts ⟨(i 0).val / 2048, hq⟩
  refine ⟨⟨(i 0).val / 2048, hq⟩, flush2_3 _, ?_⟩
  rw [mem_blk2_3]
  intro a
  match a with
  | ⟨0, _⟩ =>
    show win2_3.index ⟨(i 0).val / 2048, hq⟩ (0 : Fin 2) * 2048 ≤ (i 0).val ∧ (i 0).val < win2_3.index ⟨(i 0).val / 2048, hq⟩ (0 : Fin 2) * 2048 + 2048
    rw [h0]; show (i 0).val / 2048 * 2048 ≤ (i 0).val ∧ (i 0).val < (i 0).val / 2048 * 2048 + 2048; omega
  | ⟨1, _⟩ =>
    show win2_3.index ⟨(i 0).val / 2048, hq⟩ (1 : Fin 2) * 768 ≤ (i 1).val ∧ (i 1).val < win2_3.index ⟨(i 0).val / 2048, hq⟩ (1 : Fin 2) * 768 + 768
    rw [h1]; omega

theorem arr2_eq (c : Dev nD) :
    (dat2 V c).arrAt 3 cfg2.N = outprojG (V c main_v4) (V c main_arg2) (V c main_arg3) :=
  (dat2 V c).arrAt_eq_of_cover 3 _ (fun t _ => flushed2_3_eq V c t) cover2_3_arr

theorem coe_sum_fin (f : Fin 768 → ℝ) : ((∑ e : Fin 768, f e : ℝ) : EReal) = ∑ e : Fin 768, ((f e : ℝ) : EReal) := by
  induction (Finset.univ : Finset (Fin 768)) using Finset.induction_on with
  | empty => simp
  | insert a s ha ih => rw [Finset.sum_insert ha, Finset.sum_insert ha, EReal.coe_add, ih]

theorem arr2_val (V : (c : Dev nD) → (b : Ref sig .tc) → Buf (Elt Ideal) ((c : Thread nD τ).loc b)) (c : Dev nD)
    (A : Fin 8192 → Fin 768 → ℝ) (Wo : Fin 768 → Fin 768 → ℝ) (Bs : Fin 768 → ℝ)
    (hA : ∀ r e, (V c main_v4 : S8192x768.Idx → EReal) (ix2 r e) = ((A r e : ℝ) : EReal))
    (hWo : ∀ e d, (V c main_arg2 : S768x768.Idx → EReal) (ix2 e d) = ((Wo e d : ℝ) : EReal))
    (hB : ∀ d, (V c main_arg3 : S768.Idx → EReal) (ix1 d) = ((Bs d : ℝ) : EReal))
    (r : Fin 8192) (d : Fin 768) :
    ((dat2 V c).arrAt 3 cfg2.N : S8192x768.Idx → EReal) (ix2 r d) = (((∑ e : Fin 768, A r e * Wo e d) + Bs d : ℝ) : EReal) := by
  refine (congrFun (arr2_eq V c) (ix2 r d)).trans ?_
  show outprojAt (V c main_v4) (V c main_arg2) (V c main_arg3) r d = _
  unfold outprojAt
  rw [hB, EReal.coe_add, coe_sum_fin]
  refine congrArg (· + ((Bs d : ℝ) : EReal)) (Finset.sum_congr rfl fun e _ => ?_)
  rw [hA, hWo, EReal.coe_mul]

end Cert.KernelIdeal.Hand

end
-- ==== Proof.KI.ValAll.lean ====
/- The program's result array is the specification of the real inputs: the three regions' values composed through the reshapes between them. -/
import proofs.«401092_j26680336843340_3_alg».proof.Proof.KI.Run
import proofs.«401092_j26680336843340_3_alg».proof.Proof.KI.Val0
import proofs.«401092_j26680336843340_3_alg».proof.Proof.KI.Val1
import proofs.«401092_j26680336843340_3_alg».proof.Proof.KI.Val2
import proofs.«401092_j26680336843340_3_alg».proof.Proof.Spec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

def rowBatch (r : Fin 8192) : Fin 4 := ⟨r.val / 2048, by have := r.isLt; omega⟩

def rowPos (r : Fin 8192) : Fin 2048 := ⟨r.val % 2048, Nat.mod_lt _ (by decide)⟩

def rowOf (b : Fin 4) (n : Fin 2048) : Fin 8192 := ⟨b.val * 2048 + n.val, by have := b.isLt; have := n.isLt; omega⟩

theorem rowBatch_rowOf (b : Fin 4) (n : Fin 2048) : rowBatch (rowOf b n) = b :=
  Fin.ext (by show (b.val * 2048 + n.val) / 2048 = b.val; have := n.isLt; omega)
theorem rowPos_rowOf (b : Fin 4) (n : Fin 2048) : rowPos (rowOf b n) = n :=
  Fin.ext (by show (b.val * 2048 + n.val) % 2048 = n.val; have := n.isLt; omega)

theorem flat_of_batched {α : Type} (v : S4x2048x768.Idx → α) (h : S4x2048x768.ShapeCasts S8192x768) (r : Fin 8192) (d : Fin 768) :
    shapeCast S8192x768 v h (ix2 r d) = v (ix3 (rowBatch r) (rowPos r) d) := by
  refine shapeCast_apply v h (ix2 r d) (ix3 (rowBatch r) (rowPos r) d) ?_
  rw [Shape.rowMajor_val_three, Shape.rowMajor_val_two]
  show (r.val / 2048 * 2048 + r.val % 2048) * 768 + d.val = r.val * 768 + d.val
  omega

theorem batched_of_flat768 {α : Type} (v : S8192x768.Idx → α) (h : S8192x768.ShapeCasts S4x2048x768) (b : Fin 4) (n : Fin 2048) (d : Fin 768) :
    shapeCast S4x2048x768 v h (ix3 b n d) = v (ix2 (rowOf b n) d) := by
  refine shapeCast_apply v h (ix3 b n d) (ix2 (rowOf b n) d) ?_
  rw [Shape.rowMajor_val_three, Shape.rowMajor_val_two]
  rfl

theorem batched_of_flat2304 {α : Type} (v : S8192x2304.Idx → α) (h : S8192x2304.ShapeCasts S4x2048x2304) (b : Fin 4) (n : Fin 2048) (e : Fin 2304) :
    shapeCast S4x2048x2304 v h (ix3 b n e) = v (ix2 (rowOf b n) e) := by
  refine shapeCast_apply v h (ix3 b n e) (ix2 (rowOf b n) e) ?_
  rw [Shape.rowMajor_val_three, Shape.rowMajor_val_two]
  rfl

section Chain
variable (m : (ℓ : Loc nD τ sig) → Buf (Elt Ideal) ℓ) (c : Dev nD)
variable (x' : Fin 4 → Fin 2048 → Fin 768 → ℝ) (w' : Fin 768 → Fin 2304 → ℝ) (wo' : Fin 768 → Fin 768 → ℝ) (bias' : Fin 768 → ℝ)
  (hx : ∀ b n d, (m ((c : Thread nD τ).loc main_arg0) : S4x2048x768.Idx → EReal) (ix3 b n d) = ((x' b n d : ℝ) : EReal))
  (hw : ∀ d e, (m ((c : Thread nD τ).loc main_arg1) : S768x2304.Idx → EReal) (ix2 d e) = ((w' d e : ℝ) : EReal))
  (hwo : ∀ e d, (m ((c : Thread nD τ).loc main_arg2) : S768x768.Idx → EReal) (ix2 e d) = ((wo' e d : ℝ) : EReal))
  (hb : ∀ d, (m ((c : Thread nD τ).loc main_arg3) : S768.Idx → EReal) (ix1 d) = ((bias' d : ℝ) : EReal))

include hx in
theorem X1_val (r : Fin 8192) (d : Fin 768) :
    (X1 m c main_v0 : S8192x768.Idx → EReal) (ix2 r d) = ((x' (rowBatch r) (rowPos r) d : ℝ) : EReal) :=
  (congrFun (X1_main_v0 m c) (ix2 r d)).trans ((flat_of_batched _ _ r d).trans (hx _ _ d))

include hx hw in
theorem X2_val (r : Fin 8192) (e : Fin 2304) :
    (X2 m c main_v1 : S8192x2304.Idx → EReal) (ix2 r e) = ((∑ d : Fin 768, x' (rowBatch r) (rowPos r) d * w' d e : ℝ) : EReal) :=
  (congrFun (X2_main_v1 m c) (ix2 r e)).trans
    (arr0_val (fun c b => X1 m c b) c (fun r d => x' (rowBatch r) (rowPos r) d) w' (X1_val m c x' hx)
      (fun d e => (congrFun (X1_main_arg1 m c) (ix2 d e)).trans (hw d e)) r e)

include hx hw in
theorem X3_val (b : Fin 4) (n : Fin 2048) (e : Fin 2304) :
    (X3 m c main_v2 : S4x2048x2304.Idx → EReal) (ix3 b n e) = ((Cert.Spec.qkvR x' w' b n e : ℝ) : EReal) := by
  refine (congrFun (X3_main_v2 m c) (ix3 b n e)).trans ((batched_of_flat2304 _ _ b n e).trans ((X2_val m c x' w' hx hw (rowOf b n) e).trans ?_))
  rw [rowBatch_rowOf, rowPos_rowOf]
  rfl

include hx hw in
theorem X4_val (b : Fin 4) (n : Fin 2048) (e : Fin 768) :
    (X4 m c main_v3 : S4x2048x768.Idx → EReal) (ix3 b n e) = ((Cert.Spec.attnFlat (Cert.Spec.qkvR x' w') b n e : ℝ) : EReal) :=
  (congrFun (X4_main_v3 m c) (ix3 b n e)).trans
    (arr1_val (fun c b => X3 m c b) c (Cert.Spec.qkvR x' w') (X3_val m c x' w' hx hw) b n e)

include hx hw in
theorem X5_val (r : Fin 8192) (e : Fin 768) :
    (X5 m c main_v4 : S8192x768.Idx → EReal) (ix2 r e) = ((Cert.Spec.attnFlat (Cert.Spec.qkvR x' w') (rowBatch r) (rowPos r) e : ℝ) : EReal) :=
  (congrFun (X5_main_v4 m c) (ix2 r e)).trans ((flat_of_batched _ _ r e).trans (X4_val m c x' w' hx hw _ _ e))

include hx hw hwo hb in
theorem X6_val (r : Fin 8192) (d : Fin 768) :
    (X6 m c main_v5 : S8192x768.Idx → EReal) (ix2 r d)
      = (((∑ e : Fin 768, Cert.Spec.attnFlat (Cert.Spec.qkvR x' w') (rowBatch r) (rowPos r) e * wo' e d) + bias' d : ℝ) : EReal) :=
  (congrFun (X6_main_v5 m c) (ix2 r d)).trans
    (arr2_val (fun c b => X5 m c b) c (fun r e => Cert.Spec.attnFlat (Cert.Spec.qkvR x' w') (rowBatch r) (rowPos r) e) wo' bias'
      (X5_val m c x' w' hx hw)
      (fun e d => (congrFun (X5_main_arg2 m c) (ix2 e d)).trans (hwo e d))
      (fun d => (congrFun (X5_main_arg3 m c) (ix1 d)).trans (hb d)) r d)

include hx hw hwo hb in
theorem result_val (b : Fin 4) (n : Fin 2048) (d : Fin 768) :
    (X7 m c main_v6 : S4x2048x768.Idx → EReal) (ix3 b n d) = ((Cert.Spec.specR x' w' wo' bias' b n d : ℝ) : EReal) := by
  refine (congrFun (result_eq m c) (ix3 b n d)).trans ((batched_of_flat768 _ _ b n d).trans ((X6_val m c x' w' wo' bias' hx hw hwo hb (rowOf b n) d).trans ?_))
  rw [rowBatch_rowOf, rowPos_rowOf]
  rfl

end Chain

end Cert.KernelIdeal.Hand

end
-- ==== Proof.Ref.RefVal.lean ====
/- The reference's result term, read index by index, is the specification. -/
import proofs.«401092_j26680336843340_3_alg».proof.Proof.Gen.ReferenceIdeal.Read
import proofs.«401092_j26680336843340_3_alg».proof.Proof.Spec
import proofs.«401092_j26680336843340_3_alg».proof.Proof.LibStreamSoftmax

noncomputable section

open scoped BigOperators

namespace Cert.ReferenceIdeal.RefVal

open Cert.ReferenceIdeal Cert.ReferenceIdeal.Gen Cert.ReferenceIdeal.Read Idealize.ShloMosaic Idealize.ShloMosaic.ValueIdx Cert.Spec

section
variable (x : FVec Ideal S4x2048x768 .f32) (w : FVec Ideal S768x2304 .f32)
  (x' : Fin 4 → Fin 2048 → Fin 768 → ℝ) (w' : Fin 768 → Fin 2304 → ℝ)
  (hx : ∀ b n d, x (ix3 b n d) = ((x' b n d : ℝ) : EReal)) (hw : ∀ d e, w (ix2 d e) = ((w' d e : ℝ) : EReal))

include hx hw in

theorem proj_eq (b : Fin 4) (n : Fin 2048) (e : Fin 2304) :
    val_main_v0 (F := Ideal) x w (ix3 b n e) = ((qkvR x' w' b n e : ℝ) : EReal) := by
  rw [val_main_v0_apply]
  have el : ∀ k : Fin 768, lidx_main_v0 (ix3 b n e) k = ix3 b n k := fun k =>
    funext fun a => by match a with | ⟨0, _⟩ => rfl | ⟨1, _⟩ => rfl | ⟨2, _⟩ => rfl
  have er : ∀ k : Fin 768, ridx_main_v0 (ix3 b n e) k = ix2 k e := fun k =>
    funext fun a => by match a with | ⟨0, _⟩ => rfl | ⟨1, _⟩ => rfl
  simp only [el, er, hx, hw, ← EReal.coe_mul]
  unfold qkvR
  rw [Cert.FlashMath.coe_sum]

theorem qidx (b : Fin 4) (hh : Fin 12) (n : Fin 2048) (dd : Fin 64) :
    idx_main_v1 (idx_main_v4 (idx_main_v5 (ix4 b hh n dd))) = ix3 b n (qcol hh dd) := by
  have hb := b.isLt; have hh' := hh.isLt; have hn := n.isLt; have hd := dd.isLt
  funext a
  match a with
  | ⟨0, _⟩ => exact Fin.ext (by show (((b.val * 2048 + n.val) * 12 + hh.val) * 64 + dd.val) / 1572864 = b.val; omega)
  | ⟨1, _⟩ => exact Fin.ext (by show (((b.val * 2048 + n.val) * 12 + hh.val) * 64 + dd.val) / 768 % 2048 = n.val; omega)
  | ⟨2, _⟩ => exact Fin.ext (by show (((b.val * 2048 + n.val) * 12 + hh.val) * 64 + dd.val) % 768 = hh.val * 64 + dd.val; omega)

theorem kidx (b : Fin 4) (hh : Fin 12) (n : Fin 2048) (dd : Fin 64) :
    idx_main_v2 (idx_main_v6 (idx_main_v7 (ix4 b hh n dd))) = ix3 b n (kcol hh dd) := by
  have hb := b.isLt; have hh' := hh.isLt; have hn := n.isLt; have hd := dd.isLt
  funext a
  match a with
  | ⟨0, _⟩ => exact Fin.ext (by show (((b.val * 2048 + n.val) * 12 + hh.val) * 64 + dd.val) / 1572864 = b.val; omega)
  | ⟨1, _⟩ => exact Fin.ext (by show (((b.val * 2048 + n.val) * 12 + hh.val) * 64 + dd.val) / 768 % 2048 = n.val; omega)
  | ⟨2, _⟩ => exact Fin.ext (by show 768 + (((b.val * 2048 + n.val) * 12 + hh.val) * 64 + dd.val) % 768 = 768 + (hh.val * 64 + dd.val); omega)

theorem vidx (b : Fin 4) (hh : Fin 12) (n : Fin 2048) (dd : Fin 64) :
    idx_main_v3 (idx_main_v8 (idx_main_v9 (ix4 b hh n dd))) = ix3 b n (vcol hh dd) := by
  have hb := b.isLt; have hh' := hh.isLt; have hn := n.isLt; have hd := dd.isLt
  funext a
  match a with
  | ⟨0, _⟩ => exact Fin.ext (by show (((b.val * 2048 + n.val) * 12 + hh.val) * 64 + dd.val) / 1572864 = b.val; omega)
  | ⟨1, _⟩ => exact Fin.ext (by show (((b.val * 2048 + n.val) * 12 + hh.val) * 64 + dd.val) / 768 % 2048 = n.val; omega)
  | ⟨2, _⟩ => exact Fin.ext (by show 1536 + (((b.val * 2048 + n.val) * 12 + hh.val) * 64 + dd.val) % 768 = 1536 + (hh.val * 64 + dd.val); omega)

include hx hw in

theorem q_eq (b : Fin 4) (hh : Fin 12) (n : Fin 2048) (dd : Fin 64) :
    val_main_v5 (F := Ideal) x w (ix4 b hh n dd) = ((qkvR x' w' b n (qcol hh dd) : ℝ) : EReal) := by
  rw [val_main_v5_apply, val_main_v4_apply, val_main_v1_apply, qidx]
  exact proj_eq x w x' w' hx hw b n _

include hx hw in

theorem k_eq (b : Fin 4) (hh : Fin 12) (n : Fin 2048) (dd : Fin 64) :
    val_main_v7 (F := Ideal) x w (ix4 b hh n dd) = ((qkvR x' w' b n (kcol hh dd) : ℝ) : EReal) := by
  rw [val_main_v7_apply, val_main_v6_apply, val_main_v2_apply, kidx]
  exact proj_eq x w x' w' hx hw b n _

include hx hw in

theorem v_eq (b : Fin 4) (hh : Fin 12) (n : Fin 2048) (dd : Fin 64) :
    val_main_v9 (F := Ideal) x w (ix4 b hh n dd) = ((qkvR x' w' b n (vcol hh dd) : ℝ) : EReal) := by
  rw [val_main_v9_apply, val_main_v8_apply, val_main_v3_apply, vidx]
  exact proj_eq x w x' w' hx hw b n _

include hx hw in

theorem score_eq (b : Fin 4) (hh : Fin 12) (n j : Fin 2048) :
    val_main_v12 (F := Ideal) x w (ix4 b hh n j) = ((scoreR (qkvR x' w') b hh n j : ℝ) : EReal) := by
  rw [val_main_v12_apply, val_main_v10_apply, val_main_v11_apply, val_main_cst_apply]
  have el : ∀ k : Fin 64, lidx_main_v10 (ix4 b hh n j) k = ix4 b hh n k := fun k =>
    funext fun a => by match a with | ⟨0, _⟩ => rfl | ⟨1, _⟩ => rfl | ⟨2, _⟩ => rfl | ⟨3, _⟩ => rfl
  have er : ∀ k : Fin 64, ridx_main_v10 (ix4 b hh n j) k = ix4 b hh j k := fun k =>
    funext fun a => by match a with | ⟨0, _⟩ => rfl | ⟨1, _⟩ => rfl | ⟨2, _⟩ => rfl | ⟨3, _⟩ => rfl
  simp only [el, er, q_eq x w x' w' hx hw, k_eq x w x' w' hx hw, ← EReal.coe_mul, Ideal.mulf_def, Ideal.ofBits_def,
    Cert.FlashMath.c8, ← Cert.FlashMath.coe_sum]
  rfl

theorem red3 : S4x12x2048x2048.Reduces [3] S4x12x2048 := by decide

theorem lift_ix3 (h : S4x12x2048x2048.Reduces [3] S4x12x2048) (b : Fin 4) (hh : Fin 12) (n : Fin 2048)
    (k : Fin (S4x12x2048x2048.size 3)) : h.lift (ix3 b hh n) k = ix4 b hh n (⟨k.val, k.isLt⟩ : Fin 2048) := by
  funext c; apply Fin.ext
  fin_cases c <;> rfl

theorem rowmax_of (y : FVec Ideal S4x12x2048x2048 .f32) (s : Fin 2048 → ℝ) (b : Fin 4) (hh : Fin 12) (n : Fin 2048)
    (hy : ∀ j, y (ix4 b hh n j) = ((s j : ℝ) : EReal)) :
    ∃ M : ℝ, Host.reduce FloatOps.maximumf y (val_main_cst_0 (F := Ideal)) reducesTo_S4x12x2048x2048_S4x12x2048_d3 h_S_ (ix3 b hh n)
      = ((M : ℝ) : EReal) := by
  rw [Host.reduce_eq_fold_single FloatOps.maximumf y _ reducesTo_S4x12x2048x2048_S4x12x2048_d3 red3 h_S_]
  obtain ⟨M, hM⟩ := Cert.FlashMath.fold_max_coe (Finset.univ : Finset (Fin 2048)) Finset.univ_nonempty s
  refine ⟨M, Eq.trans ?_ hM⟩
  have hf : (y ∘ red3.lift (ix3 b hh n)) = fun k : Fin 2048 => ((s k : ℝ) : EReal) :=
    funext fun k => (congrArg y (lift_ix3 red3 b hh n k)).trans (hy _)
  have h0 : val_main_cst_0 (F := Ideal) (Shape.Idx.first h_S_) = (⊥ : EReal) := Cert.FlashMath.negInf
  rw [h0]
  exact congrArg (fun f => Finset.fold max (⊥ : EReal) f (Finset.univ : Finset (Fin 2048))) hf

include hx hw in

theorem rowmax_exists (b : Fin 4) (hh : Fin 12) (n : Fin 2048) :
    ∃ M : ℝ, val_main_v15 (F := Ideal) x w (ix3 b hh n) = ((M : ℝ) : EReal) := by
  obtain ⟨M, hM⟩ := rowmax_of (val_main_v12 (F := Ideal) x w) (fun j => scoreR (qkvR x' w') b hh n j) b hh n
    (fun j => score_eq x w x' w' hx hw b hh n j)
  refine ⟨M, ?_⟩
  rw [val_main_v15_apply, val_main_v14_apply, val_main_cst_1_apply]
  unfold val_main_v13
  rw [hM, Ideal.maximumf_def, Ideal.ofBits_def, Cert.FlashMath.negInf]
  exact Cert.FlashMath.max_bot_coe M

include hx hw in

theorem exp_eq (b : Fin 4) (hh : Fin 12) (n : Fin 2048) (M : ℝ)
    (hM : val_main_v15 (F := Ideal) x w (ix3 b hh n) = ((M : ℝ) : EReal)) (j : Fin 2048) :
    val_main_v19 (F := Ideal) x w (ix4 b hh n j) = ((Real.exp (scoreR (qkvR x' w') b hh n j - M) : ℝ) : EReal) := by
  rw [val_main_v19_apply, val_main_v18_apply, val_main_v17_apply, val_main_v16_apply]
  have ei : idx_main_v16 (idx_main_v17 (ix4 b hh n j)) = ix3 b hh n :=
    funext fun a => by match a with | ⟨0, _⟩ => rfl | ⟨1, _⟩ => rfl | ⟨2, _⟩ => rfl
  rw [ei, hM, score_eq x w x' w' hx hw, Ideal.subf_def, Ideal.hostUnary_exp_def, ← EReal.coe_sub, Cert.FlashMath.exp_coe]

include hx hw in

theorem sum_eq (b : Fin 4) (hh : Fin 12) (n : Fin 2048) (M : ℝ)
    (hM : val_main_v15 (F := Ideal) x w (ix3 b hh n) = ((M : ℝ) : EReal)) :
    val_main_v20 (F := Ideal) x w (ix3 b hh n)
      = ((∑ j : Fin 2048, Real.exp (scoreR (qkvR x' w') b hh n j - M) : ℝ) : EReal) := by
  rw [val_main_v20_apply, val_main_cst_2_apply]
  have ei : ∀ k : Fin 2048, idx_main_v20 (ix3 b hh n) k = ix4 b hh n k := fun k =>
    funext fun a => by match a with | ⟨0, _⟩ => rfl | ⟨1, _⟩ => rfl | ⟨2, _⟩ => rfl | ⟨3, _⟩ => rfl
  simp only [ei, exp_eq x w x' w' hx hw b hh n M hM, Ideal.ofBits_def, Cert.FlashMath.zero32, zero_add,
    ← Cert.FlashMath.coe_sum]

include hx hw in

theorem quot_eq (b : Fin 4) (hh : Fin 12) (n : Fin 2048) (M : ℝ)
    (hM : val_main_v15 (F := Ideal) x w (ix3 b hh n) = ((M : ℝ) : EReal)) (j : Fin 2048) :
    val_main_v23 (F := Ideal) x w (ix4 b hh n j)
      = ((Real.exp (scoreR (qkvR x' w') b hh n j - M) / ∑ j' : Fin 2048, Real.exp (scoreR (qkvR x' w') b hh n j' - M) : ℝ) : EReal) := by
  rw [val_main_v23_apply, val_main_v22_apply, val_main_v21_apply]
  have ei : idx_main_v21 (idx_main_v22 (ix4 b hh n j)) = ix3 b hh n :=
    funext fun a => by match a with | ⟨0, _⟩ => rfl | ⟨1, _⟩ => rfl | ⟨2, _⟩ => rfl
  rw [ei, sum_eq x w x' w' hx hw b hh n M hM, exp_eq x w x' w' hx hw b hh n M hM j, Ideal.hostDivf_def]
  exact Cert.FlashMath.div_coe' _ _ (ne_of_gt (Finset.sum_pos (fun _ _ => Real.exp_pos _) Finset.univ_nonempty))

include hx hw in

theorem attn_eq (b : Fin 4) (hh : Fin 12) (n : Fin 2048) (dd : Fin 64) :
    val_main_v24 (F := Ideal) x w (ix4 b hh n dd) = ((attnR (qkvR x' w') b n hh dd : ℝ) : EReal) := by
  obtain ⟨M, hM⟩ := rowmax_exists x w x' w' hx hw b hh n
  rw [val_main_v24_apply]
  have el : ∀ k : Fin 2048, lidx_main_v24 (ix4 b hh n dd) k = ix4 b hh n k := fun k =>
    funext fun a => by match a with | ⟨0, _⟩ => rfl | ⟨1, _⟩ => rfl | ⟨2, _⟩ => rfl | ⟨3, _⟩ => rfl
  have er : ∀ k : Fin 2048, ridx_main_v24 (ix4 b hh n dd) k = ix4 b hh k dd := fun k =>
    funext fun a => by match a with | ⟨0, _⟩ => rfl | ⟨1, _⟩ => rfl | ⟨2, _⟩ => rfl | ⟨3, _⟩ => rfl
  simp only [el, er, quot_eq x w x' w' hx hw b hh n M hM, v_eq x w x' w' hx hw, ← EReal.coe_mul,
    ← Cert.FlashMath.coe_sum]
  exact congrArg (fun r : ℝ => (r : EReal))
    (Cert.FlashMath.softmax_shift (fun j => scoreR (qkvR x' w') b hh n j) (fun j => qkvR x' w' b j (vcol hh dd)) M)

theorem midx (b : Fin 4) (n : Fin 2048) (e : Fin 768) :
    idx_main_v25 (idx_main_v26 (ix3 b n e)) = ix4 b (headOf e) n (laneOf e) := by
  have hb := b.isLt; have hn := n.isLt; have he := e.isLt
  funext a
  match a with
  | ⟨0, _⟩ => exact Fin.ext (by show ((b.val * 2048 + n.val) * 768 + e.val) / 1572864 = b.val; omega)
  | ⟨1, _⟩ => exact Fin.ext (by show ((b.val * 2048 + n.val) * 768 + e.val) / 64 % 12 = e.val / 64; omega)
  | ⟨2, _⟩ => exact Fin.ext (by show ((b.val * 2048 + n.val) * 768 + e.val) / 768 % 2048 = n.val; omega)
  | ⟨3, _⟩ => exact Fin.ext (by show ((b.val * 2048 + n.val) * 768 + e.val) % 64 = e.val % 64; omega)

include hx hw in

theorem merge_eq (b : Fin 4) (n : Fin 2048) (e : Fin 768) :
    val_main_v26 (F := Ideal) x w (ix3 b n e) = ((attnFlat (qkvR x' w') b n e : ℝ) : EReal) := by
  rw [val_main_v26_apply, val_main_v25_apply, midx]
  exact attn_eq x w x' w' hx hw b (headOf e) n (laneOf e)

end

theorem val_eq_spec (x : FVec Ideal Cert.ReferenceIdeal.S4x2048x768 .f32) (w : FVec Ideal Cert.ReferenceIdeal.S768x2304 .f32)
    (wo : FVec Ideal Cert.ReferenceIdeal.S768x768 .f32) (bias : FVec Ideal Cert.ReferenceIdeal.S768 .f32)
    (x' : Fin 4 → Fin 2048 → Fin 768 → ℝ) (w' : Fin 768 → Fin 2304 → ℝ) (wo' : Fin 768 → Fin 768 → ℝ) (bias' : Fin 768 → ℝ)
    (hx : ∀ b n d, x (ix3 b n d) = ((x' b n d : ℝ) : EReal)) (hw : ∀ d e, w (ix2 d e) = ((w' d e : ℝ) : EReal))
    (hwo : ∀ e d, wo (ix2 e d) = ((wo' e d : ℝ) : EReal)) (hb : ∀ d, bias (ix1 d) = ((bias' d : ℝ) : EReal))
    (b : Fin 4) (n : Fin 2048) (d : Fin 768) :
    val_main_v30 (F := Ideal) x w wo bias (ix3 b n d) = ((Cert.Spec.specR x' w' wo' bias' b n d : ℝ) : EReal) := by
  rw [val_main_v30_apply, val_main_v27_apply, val_main_v29_apply, val_main_v28_apply]
  have el : ∀ k : Fin 768, lidx_main_v27 (ix3 b n d) k = ix3 b n k := fun k =>
    funext fun a => by match a with | ⟨0, _⟩ => rfl | ⟨1, _⟩ => rfl | ⟨2, _⟩ => rfl
  have er : ∀ k : Fin 768, ridx_main_v27 (ix3 b n d) k = ix2 k d := fun k =>
    funext fun a => by match a with | ⟨0, _⟩ => rfl | ⟨1, _⟩ => rfl
  have eb : idx_main_v28 (idx_main_v29 (ix3 b n d)) = ix1 d :=
    funext fun a => by match a with | ⟨0, _⟩ => rfl
  simp only [el, er, eb, merge_eq x w x' w' hx hw, hwo, hb, ← EReal.coe_mul, ← Cert.FlashMath.coe_sum, Ideal.addf_def,
    ← EReal.coe_add]
  rfl

open Idealize.ShloMosaic.TcCoe Idealize.SL.Sem in

theorem res_eq_val (m : (ℓ : Loc nD τ sig) → Buf (Elt Ideal) ℓ) (c : Dev nD) :
    Cert.ReferenceIdeal.Value.res_out0 (F := Ideal) m c
      = val_main_v30 (F := Ideal) (m ((c.tc : Thread nD τ).loc main_arg0)) (m ((c.tc : Thread nD τ).loc main_arg1))
          (m ((c.tc : Thread nD τ).loc main_arg2)) (m ((c.tc : Thread nD τ).loc main_arg3)) :=
  val_main_v30_eq m c

end Cert.ReferenceIdeal.RefVal
end
-- ==== Proof.Pre.Finite.lean ====
/- Finite inputs are real arrays. -/
import proofs.«401092_j26680336843340_3_alg».proof.Pre_finite_inputs
import Idealize.ShloMosaic.Lib.ReduceAll
import Idealize.ShloMosaic.Lib.ValueIdx
import Idealize.ShloMosaic.PureOps.Ideal

namespace Cert.PreFinite

open Idealize.ShloMosaic Idealize.ShloMosaic.ValueIdx

instance : Subsingleton Cert.Pre_finite_inputs.S_.Idx := ⟨fun a b => funext fun d => d.elim0⟩

theorem real_of_abs_lt_top (x : Ideal .f32)
    (h : FloatOps.cmpf (F := Ideal) .olt (FloatOps.hostAbsf x) (FloatOps.ofBits (F := Ideal) .f32 0x7F800000#32) = 1#1) :
    ∃ r : ℝ, x = ((r : ℝ) : EReal) := by

  have htop : Ideal.ofBits .f32 0x7F800000#32 = (⊤ : EReal) := by simp [Ideal.ofBits, Ideal.ieee]
  change BitVec.ofBool (decide (max x (-x) < Ideal.ofBits .f32 0x7F800000#32)) = 1#1 at h
  rw [htop] at h
  induction x using EReal.rec with
  | bot => simp at h
  | coe r => exact ⟨r, rfl⟩
  | top => simp at h

theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = ((r : ℝ) : EReal) :=
  real_of_abs_lt_top (x i) (Host.reduce_andi_all _ _ hr hu ix0 e i)

theorem reals_of_pre [Cert.Pre_finite_inputs.Facts]
    (x : FVec Ideal Cert.Pre_finite_inputs.S4x2048x768 .f32) (w : FVec Ideal Cert.Pre_finite_inputs.S768x2304 .f32)
    (wo : FVec Ideal Cert.Pre_finite_inputs.S768x768 .f32) (bias : FVec Ideal Cert.Pre_finite_inputs.S768 .f32)
    (h : Cert.Pre_finite_inputs.fn (F := Ideal) x w wo bias = fun _ => 1#1) :
    ∃ (x' : Fin 4 → Fin 2048 → Fin 768 → ℝ) (w' : Fin 768 → Fin 2304 → ℝ) (wo' : Fin 768 → Fin 768 → ℝ)
      (bias' : Fin 768 → ℝ),
      (∀ b n d, x (ix3 b n d) = ((x' b n d : ℝ) : EReal)) ∧ (∀ d e, w (ix2 d e) = ((w' d e : ℝ) : EReal))
        ∧ (∀ e d, wo (ix2 e d) = ((wo' e d : ℝ) : EReal)) ∧ (∀ d, bias (ix1 d) = ((bias' d : ℝ) : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have hx := reals_of_all x _ _ _ h1
  have hw := reals_of_all w _ _ _ h2
  have hwo := reals_of_all wo _ _ _ h3
  have hbias := reals_of_all bias _ _ _ h4
  exact ⟨fun b n d => (hx (ix3 b n d)).choose, fun d e => (hw (ix2 d e)).choose,
    fun e d => (hwo (ix2 e d)).choose, fun d => (hbias (ix1 d)).choose,
    fun b n d => (hx (ix3 b n d)).choose_spec, fun d e => (hw (ix2 d e)).choose_spec,
    fun e d => (hwo (ix2 e d)).choose_spec, fun d => (hbias (ix1 d)).choose_spec⟩

end Cert.PreFinite
-- ==== Proof.lean ====
/- The five claims: both kernel programs run and keep their arguments, and over the reals the kernel and the reference end at one specification of the (finite) inputs. -/
import proofs.«401092_j26680336843340_3_alg».proof.Defs
import proofs.«401092_j26680336843340_3_alg».proof.Proof.Gen.Kernel
import proofs.«401092_j26680336843340_3_alg».proof.Proof.Gen.KernelIdeal
import proofs.«401092_j26680336843340_3_alg».proof.Proof.Gen.ReferenceIdeal
import proofs.«401092_j26680336843340_3_alg».proof.Proof.Gen.Pre_finite_inputs
import proofs.«401092_j26680336843340_3_alg».proof.Proof.K.Run
import proofs.«401092_j26680336843340_3_alg».proof.Proof.KI.Run
import proofs.«401092_j26680336843340_3_alg».proof.Proof.KI.ValAll
import proofs.«401092_j26680336843340_3_alg».proof.Proof.Ref.RefVal
import proofs.«401092_j26680336843340_3_alg».proof.Proof.Pre.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  have hreal := fun c => Cert.PreFinite.reals_of_pre _ _ _ _ (hpre c)
  choose x' w' wo' bias' hall using hreal
  refine ⟨fun c => fun i => ((Cert.Spec.specR (x' c) (w' c) (wo' c) (bias' c) (i 0) (i 1) (i 2) : ℝ) : EReal), ?_, ?_⟩
  · refine (θ_run (Cert.KernelIdeal.defs (F := Ideal)) _ _).mono (fun r h c => ⟨?_, ?_, ?_, ?_, ?_⟩)
      (Cert.KernelIdeal.Hand.run_all (F := Ideal) m ρ)
    · refine (h c _ (Cert.KernelIdeal.Hand.run_mem_uc Cert.KernelIdeal.main_v6 (by decide))).trans ?_
      funext i
      obtain ⟨b, n, d, rfl⟩ : ∃ (b : Fin 4) (n : Fin 2048) (d : Fin 768), i = ix3 b n d := ⟨i 0, i 1, i 2, eq_ix3 i⟩
      exact Cert.KernelIdeal.Hand.result_val m c (x' c) (w' c) (wo' c) (bias' c) (hall c).1 (hall c).2.1 (hall c).2.2.1 (hall c).2.2.2 b n d
    · exact (h c _ (Cert.KernelIdeal.Hand.run_mem_uc Cert.KernelIdeal.main_arg0 (by decide))).trans (Cert.KernelIdeal.Hand.X7_main_arg0 m c)
    · exact (h c _ (Cert.KernelIdeal.Hand.run_mem_uc Cert.KernelIdeal.main_arg1 (by decide))).trans (Cert.KernelIdeal.Hand.X7_main_arg1 m c)
    · exact (h c _ (Cert.KernelIdeal.Hand.run_mem_uc Cert.KernelIdeal.main_arg2 (by decide))).trans (Cert.KernelIdeal.Hand.X7_main_arg2 m c)
    · exact (h c _ (Cert.KernelIdeal.Hand.run_mem_uc Cert.KernelIdeal.main_arg3 (by decide))).trans (Cert.KernelIdeal.Hand.X7_main_arg3 m c)
  · refine (θ_run (Cert.ReferenceIdeal.defs (F := Ideal)) _ _).mono (fun r h c => ⟨(h c).1.trans ?_, (h c).2⟩)
      (Cert.ReferenceIdeal.Value.run (F := Ideal) m' ρ')
    refine (Cert.ReferenceIdeal.RefVal.res_eq_val m' c).trans ?_
    rw [(hagree c).1, (hagree c).2.1, (hagree c).2.2.1, (hagree c).2.2.2]
    funext i
    obtain ⟨b, n, d, rfl⟩ : ∃ (b : Fin 4) (n : Fin 2048) (d : Fin 768), i = ix3 b n d := ⟨i 0, i 1, i 2, eq_ix3 i⟩
    exact Cert.ReferenceIdeal.RefVal.val_eq_spec _ _ _ _ (x' c) (w' c) (wo' c) (bias' c) (hall c).1 (hall c).2.1 (hall c).2.2.1 (hall c).2.2.2 b n d

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
